-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S2x256 : Shape := ⟨2, ![2, 256]⟩
abbrev S200x10000 : Shape := ⟨2, ![200, 10000]⟩
abbrev S200x256 : Shape := ⟨2, ![200, 256]⟩
abbrev S2000x256 : Shape := ⟨2, ![2000, 256]⟩

abbrev nBuf : Space → Nat
  | .hbm => 19
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S10000x256, .bf16⟩
  | .hbm, ⟨17, _⟩ => ⟨S2x256, .f32⟩
  | .hbm, ⟨18, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S10000x256, .f32⟩
  | .local _ .vmem, ⟨3, _⟩ => ⟨S256x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S200x256, .bf16⟩
  | .local _ .vmem, ⟨12, _⟩ => ⟨S200x256, .bf16⟩
  | .local _ .vmem, ⟨13, _⟩ => ⟨S2x256, .f32⟩
  | .local _ .vmem, ⟨14, _⟩ => ⟨S10000x256, .f32⟩
  | .local _ .vmem, ⟨15, _⟩ => ⟨S10000x256, .bf16⟩
  | .local _ .vmem, ⟨16, _⟩ => ⟨S2x256, .f32⟩
  | .local _ .vmem, ⟨17, _⟩ => ⟨S2000x256, .bf16⟩
  | .local _ .vmem, ⟨18, _⟩ => ⟨S2000x256, .bf16⟩
  | .local _ .vmem, ⟨19, _⟩ => ⟨S2x256, .f32⟩
  | .local _ .vmem, ⟨20, _⟩ => ⟨S2000x256, .f32⟩
  | .local _ .vmem, ⟨21, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨2, ![2, 50], ![false, false]⟩

def k0_cond3 (i : grid0.Coords) : BitVec 1 :=
  let arg0 : BitVec 32 := BitVec.ofNat 32 (i 0).val
  let c0_i32_10 : BitVec 32 := 0#32
  let v18 : BitVec 1 := Scalar.cmpi .eq arg0 c0_i32_10
  let v19 : BitVec 32 := Scalar.extui v18
  let c0_i32_11 : BitVec 32 := 0#32
  let v20 : BitVec 1 := Scalar.cmpi .ne v19 c0_i32_11
  v20

def k0_off1 (i : grid0.Coords) : Fin 2 → Nat :=
  let arg1 : BitVec 32 := BitVec.ofNat 32 (i 1).val
  let c200_i32 : BitVec 32 := 200#32
  let v36 : BitVec 32 := Scalar.muli arg1 c200_i32
  let v37 : Index := Scalar.indexCast v36
  let c0_21 : Index := 0#32
  ![v37.toNat, 0]
def k0_cond4 (i : grid0.Coords) : BitVec 1 :=
  let arg0 : BitVec 32 := BitVec.ofNat 32 (i 0).val
  let c1_i32_12 : BitVec 32 := 1#32
  let v21 : BitVec 1 := Scalar.cmpi .eq arg0 c1_i32_12
  let v22 : BitVec 32 := Scalar.extui v21
  let c0_i32_13 : BitVec 32 := 0#32
  let v23 : BitVec 1 := Scalar.cmpi .ne v22 c0_i32_13
  v23

def k0_cond7 (i : grid0.Coords) : BitVec 1 :=
  let arg0 : BitVec 32 := BitVec.ofNat 32 (i 0).val
  let c1_i32_18 : BitVec 32 := 1#32
  let v30 : BitVec 1 := Scalar.cmpi .eq arg0 c1_i32_18
  let arg1 : BitVec 32 := BitVec.ofNat 32 (i 1).val
  let c49_i32 : BitVec 32 := 49#32
  let v31 : BitVec 1 := Scalar.cmpi .eq arg1 c49_i32
  let v32 : BitVec 1 := Scalar.andi v30 v31
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S200x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S1x256 : S256.ShapeCasts S1x256
  inb_S10000x256_S2000x256_0_0 : ∀ a, (![0, 0] : Fin 2 → Nat) a + S2000x256.size a ≤ S10000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S2000x256_S2000x256 : S2000x256.ShapeCasts S2000x256
  inb_S10000x256_S2000x256_2000_0 : ∀ a, (![2000, 0] : Fin 2 → Nat) a + S2000x256.size a ≤ S10000x256.size a
  inb_S10000x256_S2000x256_4000_0 : ∀ a, (![4000, 0] : Fin 2 → Nat) a + S2000x256.size a ≤ S10000x256.size a
  inb_S10000x256_S2000x256_6000_0 : ∀ a, (![6000, 0] : Fin 2 → Nat) a + S2000x256.size a ≤ S10000x256.size a
  inb_S10000x256_S2000x256_8000_0 : ∀ a, (![8000, 0] : Fin 2 → Nat) a + S2000x256.size a ≤ S10000x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2x256_S1x256_0_0 : ∀ a, (![0, 0] : Fin 2 → Nat) a + S1x256.size a ≤ S2x256.size a
  inb_S2x256_S1x256_1_0 : ∀ a, (![1, 0] : Fin 2 → Nat) a + S1x256.size a ≤ S2x256.size a
  bitsLt_bf16_f32 : FTy.bits .bf16 < FTy.bits .f32
  broadcasts_S1x256_S2000x256 : S1x256.Broadcasts S2000x256
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  reduces_S200x256_S256 : S200x256.Reduces [0] S256
  h_S200x256 : 0 < S200x256.numel
  shapeCasts_S200x256_S200x256 : S200x256.ShapeCasts S200x256
  inb_S200x256_S200x256_0_0 : ∀ a, (![0, 0] : Fin 2 → Nat) a + S200x256.size a ≤ S200x256.size a
  packedbf16_S200x256_S200x256_0_0 : (Rect.unit (s := S200x256) ![0, 0] S200x256.size inb_S200x256_S200x256_0_0).PackedRows (EltTy.packing .bf16)
  inb_S2000x256_S2000x256_0_0 : ∀ a, (![0, 0] : Fin 2 → Nat) a + S2000x256.size a ≤ S2000x256.size a
  dot_S2000x256_S256x256_S2000x256_1_0_0_1_n_n_wf : DotDims.WF S2000x256 S256x256 S2000x256 [1] [0] [0] [1] [] []
  dot_S200x10000_S10000x256_S200x256_1_0_0_1_n_n_wf : DotDims.WF S200x10000 S10000x256 S200x256 [1] [0] [0] [1] [] []
  hrank0 : 0 < grid0.rank
  k0_off1_inb : ∀ i : grid0.Coords, ∀ (k0_h3 : k0_cond3 i = 1#1), ∀ a, (k0_off1 i) a + S200x256.size a ≤ S10000x256.size a
  k0_off1_packedbf16 : ∀ i : grid0.Coords, ∀ (k0_h3 : k0_cond3 i = 1#1), (Rect.unit (s := S10000x256) (k0_off1 i) S200x256.size (k0_off1_inb i k0_h3)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x256.size a ≤ S10000x256.size a
  hwx0_10 : ∀ i : grid0.Coords, EltTy.bits .bf16 = 32 ∨ (Rect.block (s := S10000x256) S200x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x256.size a ≤ S2x256.size a
  hwx0_11 : ∀ i : grid0.Coords, EltTy.bits .f32 = 32 ∨ (Rect.block (s := S2x256) S2x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .bf16 = 32 ∨ (Rect.block (s := S10000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x256.size a ≤ S2x256.size a
  hwx1_1 : ∀ i : grid1.Coords, EltTy.bits .f32 = 32 ∨ (Rect.block (s := S2x256) S2x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S10000x256.size a
  hwx1_2 : ∀ i : grid1.Coords, EltTy.bits .f32 = 32 ∨ (Rect.block (s := S10000x256) S2000x256.size (cc1_transform_2 i) (hinb1_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S200x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S2x256.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond4 i == 1#1) | 11 => fun i => !(k0_cond7 i == 1#1) | ⟨_ + 12, h⟩ => absurd h (Nat.not_lt.2 (Nat.le_add_left _ _))

abbrev win1_0 : Pipeline.Window sig grid1 :=
  Pipeline.Window.ofSpec (Memref.whole main_v6_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 109
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .i32⟩
  | .hbm, ⟨21, _⟩ => ⟨S_, .f32⟩
  | .hbm, ⟨22, _⟩ => ⟨S256, .f32⟩
  | .hbm, ⟨23, _⟩ => ⟨S1x256, .f32⟩
  | .hbm, ⟨24, _⟩ => ⟨S_, .f32⟩
  | .hbm, ⟨25, _⟩ => ⟨S1x256, .f32⟩
  | .hbm, ⟨26, _⟩ => ⟨S1x256, .f32⟩
  | .hbm, ⟨27, _⟩ => ⟨S10000x256, .f32⟩
  | .hbm, ⟨28, _⟩ => ⟨S10000x256, .f32⟩
  | .hbm, ⟨29, _⟩ => ⟨S10000x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S10000x256, .f32⟩
  | .hbm, ⟨52, _⟩ => ⟨S10000x256, .f32⟩
  | .hbm, ⟨53, _⟩ => ⟨S1x256, .f32⟩
  | .hbm, ⟨54, _⟩ => ⟨S10000x256, .f32⟩
  | .hbm, ⟨55, _⟩ => ⟨S10000x256, .f32⟩
  | .hbm, ⟨56, _⟩ => ⟨S1x256, .f32⟩
  | .hbm, ⟨57, _⟩ => ⟨S10000x256, .f32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S1x256, .f32⟩
  | .hbm, ⟨62, _⟩ => ⟨S10000x256, .f32⟩
  | .hbm, ⟨63, _⟩ => ⟨S10000x256, .f32⟩
  | .hbm, ⟨64, _⟩ => ⟨S_, .f32⟩
  | .hbm, ⟨65, _⟩ => ⟨S256, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S_, .i32⟩
  | .hbm, ⟨70, _⟩ => ⟨S_, .f32⟩
  | .hbm, ⟨71, _⟩ => ⟨S256, .f32⟩
  | .hbm, ⟨72, _⟩ => ⟨S1x256, .f32⟩
  | .hbm, ⟨73, _⟩ => ⟨S_, .f32⟩
  | .hbm, ⟨74, _⟩ => ⟨S1x256, .f32⟩
  | .hbm, ⟨75, _⟩ => ⟨S1x256, .f32⟩
  | .hbm, ⟨76, _⟩ => ⟨S10000x256, .f32⟩
  | .hbm, ⟨77, _⟩ => ⟨S10000x256, .f32⟩
  | .hbm, ⟨78, _⟩ => ⟨S10000x256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S1x256, .f32⟩
  | .hbm, ⟨93, _⟩ => ⟨S10000x256, .f32⟩
  | .hbm, ⟨94, _⟩ => ⟨S10000x256, .f32⟩
  | .hbm, ⟨95, _⟩ => ⟨S_, .f32⟩
  | .hbm, ⟨96, _⟩ => ⟨S256, .f32⟩
  | .hbm, ⟨97, _⟩ => ⟨S256, .f32⟩
  | .hbm, ⟨98, _⟩ => ⟨S256, .f32⟩
  | .hbm, ⟨99, _⟩ => ⟨S1x256, .f32⟩
  | .hbm, ⟨100, _⟩ => ⟨S10000x256, .f32⟩
  | .hbm, ⟨101, _⟩ => ⟨S10000x256, .f32⟩
  | .hbm, ⟨102, _⟩ => ⟨S1x256, .f32⟩
  | .hbm, ⟨103, _⟩ => ⟨S10000x256, .f32⟩
  | .hbm, ⟨104, _⟩ => ⟨S10000x256, .f32⟩
  | .hbm, ⟨105, _⟩ => ⟨S1x256, .f32⟩
  | .hbm, ⟨106, _⟩ => ⟨S10000x256, .f32⟩
  | .hbm, ⟨107, _⟩ => ⟨S10000x256, .f32⟩
  | .hbm, ⟨108, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_c_4 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_5 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Runs.lean ====
import proofs.«134973_g77017353552286_cont_9to1c4b_820_20_alg».proof.Proof.Gen.KernelIdeal.Skeleton
import Idealize.ShloMosaic.Lib.Pipeline.Frame
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ (UR sig nD τ) ℕ

abbrev q1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev q2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev q3 (i : grid0.Coords) : Prop := k0_cond3 i = 1#1
abbrev q4 (i : grid0.Coords) : Prop := k0_cond4 i = 1#1
abbrev q5 (i : grid0.Coords) : Prop := (Scalar.cmpi .ne (Scalar.extui (Scalar.cmpi .eq (BitVec.ofNat 32 (i 1).val) 0#32)) 0#32) = 1#1
abbrev q6 (i : grid0.Coords) : Prop := (Scalar.cmpi .ne (Scalar.extui (Scalar.cmpi .sgt (BitVec.ofNat 32 (i 1).val) 0#32)) 0#32) = 1#1
abbrev q7 (i : grid0.Coords) : Prop := k0_cond7 i = 1#1

-- A whole memref's raw contents are determined by what it reads, so owning it at `X` is holding it at `h.unread X`.
theorem owns_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  unfold owns
  refine BI.equiv_iff.mp ⟨?_, ?_⟩
  · show (_ : sProp 𝕄) ⊢ _
    iintro ⟨%f, %hf, H⟩
    obtain rfl := h.eq_unread hf
    iexact H
  · show (_ : sProp 𝕄) ⊢ _
    iintro H
    iexists _
    isplitr
    · ipureintro; exact h.read_unread _
    iexact H

variable (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S200x256 .bf16) (harg12 : arg12.IsWhole) (arg13 : Memref sig .tc .vmem S2x256 .f32) (harg13 : arg13.IsWhole) (arg14 : Memref sig .tc .vmem S10000x256 .f32) (harg14 : arg14.IsWhole) (arg15 : Memref sig .tc .vmem S10000x256 .bf16) (harg15 : arg15.IsWhole) (arg16 : Memref sig .tc .vmem S2x256 .f32) (harg16 : arg16.IsWhole)

def kernelRun0_A (h1 : q1 i) (h2 : ¬q2 i) (h3 : q3 i) (h4 : ¬q4 i) (h5 : q5 i) (h6 : ¬q6 i) (h7 : ¬q7 i)
    (x0 : Vec F S200x10000 .f32) (x1 : Vec F S10000x256 .f32) (x2 x3 : Vec F S256x256 .f32) (x4 x5 x6 x7 x8 x9 : Vec F S1x256 .f32)  :
    Σ' (LS14 : List (View.Piece (Elt F) S10000x256 .f32)), Σ' (LS15 : List (View.Piece (Elt F) S10000x256 .bf16)), { LS16 : List (View.Piece (Elt F) S2x256 .f32) //
      ∀ (xi12 : Vec F S200x256 .bf16) (xi13 : Vec F S2x256 .f32) (g15 : arg15.view.ty.Contents (Elt F)) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ (∃ d, owns c arg14 fullShare d) ∗ (arg15.view.loc c ↦[arg15.view.set]{fullShare} g15) ∗ (∃ d, owns c arg16 fullShare d)
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ (∃ f, arg14.view.loc c ↦[arg14.view.set]{fullShare} arg14.view.writes (Elt F) f LS14) ∗ (arg15.view.loc c ↦[arg15.view.set]{fullShare} arg15.view.writes (Elt F) g15 LS15) ∗ (∃ f, arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi12 xi13 g15 E K => ?run⟩
  case run =>
    simp (disch := assumption) only [owns_unread, cc0__gcn_kern_eq_skeleton]
    unfold cc0__gcn_kern_skel
    iintro ⟨H0, H1, H2, H3, H4, H5, H6, H7, H8, H9, H12, H13, ⟨%d14, H14⟩, H15, ⟨%d16, H16⟩, Hk⟩
    sl_exec (disch := assumption)
    sl_step
    iapply Hk
    iframe
    isplitl [H14]
    · iexists _; iexact H14
    iexists _; iexact H16

def kernelRun0_B (h1 : ¬q1 i) (h2 : ¬q2 i) (h3 : q3 i) (h4 : ¬q4 i) (h5 : ¬q5 i) (h6 : q6 i) (h7 : ¬q7 i)
    (x0 : Vec F S200x10000 .f32) (x1 : Vec F S10000x256 .f32) (x2 x3 : Vec F S256x256 .f32) (x4 x5 x6 x7 x8 x9 : Vec F S1x256 .f32) (xs14 : Vec F S10000x256 .f32) (xs16 : Vec F S2x256 .f32) :
    Σ' (LS15 : List (View.Piece (Elt F) S10000x256 .bf16)), { LS16 : List (View.Piece (Elt F) S2x256 .f32) //
      ∀ (xi12 : Vec F S200x256 .bf16) (xi13 : Vec F S2x256 .f32) (g15 : arg15.view.ty.Contents (Elt F)) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ owns c arg14 fullShare xs14 ∗ (arg15.view.loc c ↦[arg15.view.set]{fullShare} g15) ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ owns c arg14 fullShare xs14 ∗ (arg15.view.loc c ↦[arg15.view.set]{fullShare} arg15.view.writes (Elt F) g15 LS15) ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi12 xi13 g15 E K => ?run⟩
  case run =>
    simp (disch := assumption) only [owns_unread, cc0__gcn_kern_eq_skeleton]
    unfold cc0__gcn_kern_skel
    iintro ⟨H0, H1, H2, H3, H4, H5, H6, H7, H8, H9, H12, H13, H14, H15, H16, Hk⟩
    sl_exec (disch := assumption)
    sl_step
    iapply Hk
    iframe
    iexists _; isplitr; · ipureintro; exact harg16.read_unread _
    iexact H16

def kernelRun0_C (h1 : ¬q1 i) (h2 : q2 i) (h3 : ¬q3 i) (h4 : q4 i) (h5 : q5 i) (h6 : ¬q6 i) (h7 : ¬q7 i)
    (x0 : Vec F S200x10000 .f32) (x1 : Vec F S10000x256 .f32) (x2 x3 : Vec F S256x256 .f32) (x4 x5 x6 x7 x8 x9 : Vec F S1x256 .f32) (xs15 : Vec F S10000x256 .bf16) (xs16 : Vec F S2x256 .f32) :
    Σ' (L12 : List (View.Piece (Elt F) S200x256 .bf16)), Σ' (LS14 : List (View.Piece (Elt F) S10000x256 .f32)), { LS16 : List (View.Piece (Elt F) S2x256 .f32) //
      ∀ (xi13 : Vec F S2x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ d, owns c arg12 fullShare d) ∗ owns c arg13 fullShare xi13 ∗ (∃ d, owns c arg14 fullShare d) ∗ owns c arg15 fullShare xs15 ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ f, arg12.view.loc c ↦[arg12.view.set]{fullShare} arg12.view.writes (Elt F) f L12) ∗ owns c arg13 fullShare xi13 ∗ (∃ f, arg14.view.loc c ↦[arg14.view.set]{fullShare} arg14.view.writes (Elt F) f LS14) ∗ owns c arg15 fullShare xs15 ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi13 E K => ?run⟩
  case run =>
    simp (disch := assumption) only [owns_unread, cc0__gcn_kern_eq_skeleton]
    unfold cc0__gcn_kern_skel
    iintro ⟨H0, H1, H2, H3, H4, H5, H6, H7, H8, H9, ⟨%d12, H12⟩, H13, ⟨%d14, H14⟩, H15, H16, Hk⟩
    sl_exec (disch := assumption)
    sl_step
    iapply Hk
    iframe
    isplitl [H12]
    · iexists _; iexact H12
    isplitl [H14]
    · iexists _; iexact H14
    iexists _; isplitr; · ipureintro; exact harg16.read_unread _
    iexact H16

def kernelRun0_D (h1 : ¬q1 i) (h2 : ¬q2 i) (h3 : ¬q3 i) (h4 : q4 i) (h5 : ¬q5 i) (h6 : q6 i) (h7 : ¬q7 i)
    (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32) :
    Σ' (L12 : List (View.Piece (Elt F) S200x256 .bf16)), { LS16 : List (View.Piece (Elt F) S2x256 .f32) //
      ∀ (xi13 : Vec F S2x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ d, owns c arg12 fullShare d) ∗ owns c arg13 fullShare xi13 ∗ owns c arg14 fullShare xs14 ∗ owns c arg15 fullShare xs15 ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ f, arg12.view.loc c ↦[arg12.view.set]{fullShare} arg12.view.writes (Elt F) f L12) ∗ owns c arg13 fullShare xi13 ∗ owns c arg14 fullShare xs14 ∗ owns c arg15 fullShare xs15 ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi13 E K => ?run⟩
  case run =>
    simp (disch := assumption) only [owns_unread, cc0__gcn_kern_eq_skeleton]
    unfold cc0__gcn_kern_skel
    iintro ⟨H0, H1, H2, H3, H4, H5, H6, H7, H8, H9, ⟨%d12, H12⟩, H13, H14, H15, H16, Hk⟩
    sl_exec (disch := assumption)
    sl_step
    iapply Hk
    iframe
    isplitl [H12]
    · iexists _; iexact H12
    iexists _; isplitr; · ipureintro; exact harg16.read_unread _
    iexact H16

def kernelRun0_E (h1 : ¬q1 i) (h2 : ¬q2 i) (h3 : ¬q3 i) (h4 : q4 i) (h5 : ¬q5 i) (h6 : q6 i) (h7 : q7 i)
    (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32) :
    Σ' (L12 : List (View.Piece (Elt F) S200x256 .bf16)), Σ' (L13 : List (View.Piece (Elt F) S2x256 .f32)), { LS16 : List (View.Piece (Elt F) S2x256 .f32) //
      ∀  (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ d, owns c arg12 fullShare d) ∗ (∃ d, owns c arg13 fullShare d) ∗ owns c arg14 fullShare xs14 ∗ owns c arg15 fullShare xs15 ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ f, arg12.view.loc c ↦[arg12.view.set]{fullShare} arg12.view.writes (Elt F) f L12) ∗ (∃ f, arg13.view.loc c ↦[arg13.view.set]{fullShare} arg13.view.writes (Elt F) f L13) ∗ owns c arg14 fullShare xs14 ∗ owns c arg15 fullShare xs15 ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun  E K => ?run⟩
  case run =>
    simp (disch := assumption) only [owns_unread, cc0__gcn_kern_eq_skeleton]
    unfold cc0__gcn_kern_skel
    iintro ⟨H0, H1, H2, H3, H4, H5, H6, H7, H8, H9, ⟨%d12, H12⟩, ⟨%d13, H13⟩, H14, H15, H16, Hk⟩
    sl_exec (disch := assumption)
    sl_step
    iapply Hk
    iframe
    isplitl [H12]
    · iexists _; iexact H12
    isplitl [H13]
    · iexists _; iexact H13
    iexists _; isplitr; · ipureintro; exact harg16.read_unread _
    iexact H16

end Cert.KernelIdeal.Hand

end
-- ==== Proof.StateFns.lean ====
import proofs.«134973_g77017353552286_cont_9to1c4b_820_20_alg».proof.Proof.Runs
import Idealize.ShloMosaic.Lib.Ring
set_option maxRecDepth 16384

noncomputable section

namespace Cert.KernelIdeal.Hand

open Idealize.ShloMosaic

variable {F : FTy → Type} [FloatOps F]

abbrev scM0 : Memref sig .tc .vmem S10000x256 .f32 := Memref.whole cc0_scratch0
abbrev scM1 : Memref sig .tc .vmem S10000x256 .bf16 := Memref.whole cc0_scratch1
abbrev scM2 : Memref sig .tc .vmem S2x256 .f32 := Memref.whole cc0_scratch2
abbrev hsc0 : scM0.IsWhole := Memref.isWhole_whole _
abbrev hsc1 : scM1.IsWhole := Memref.isWhole_whole _
abbrev hsc2 : scM2.IsWhole := Memref.isWhole_whole _
abbrev VS0 : View sig .tc .vmem S10000x256 .f32 := scM0.view
abbrev VS1 : View sig .tc .vmem S10000x256 .bf16 := scM1.view
abbrev VS2 : View sig .tc .vmem S2x256 .f32 := scM2.view
abbrev VO10 : View sig .tc .vmem S200x256 .bf16 := (Memref.whole cc0_stg10_0 : Memref sig .tc .vmem S200x256 .bf16).view
abbrev VO11 : View sig .tc .vmem S2x256 .f32 := (Memref.whole cc0_stg11_0 : Memref sig .tc .vmem S2x256 .f32).view

variable (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S200x256 .bf16) (harg12 : arg12.IsWhole) (arg13 : Memref sig .tc .vmem S2x256 .f32) (harg13 : arg13.IsWhole)

section A
variable (h1 : q1 i) (h2 : ¬q2 i) (h3 : q3 i) (h4 : ¬q4 i) (h5 : q5 i) (h6 : ¬q6 i) (h7 : ¬q7 i) (x0 : Vec F S200x10000 .f32) (x1 : Vec F S10000x256 .f32) (x2 x3 : Vec F S256x256 .f32) (x4 x5 x6 x7 x8 x9 : Vec F S1x256 .f32)

def supp_A : Vec F S10000x256 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).1)
theorem scover14_A (y : S10000x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).1, y ∈ pc.1.set :=
  View.cover_of_tiledL (s := S10000x256) _ ![2000, 256] (by sl_kernel_rfl) y
def slab_A : List (View.Piece (Elt F) S10000x256 .bf16) :=
  (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).2.1
def st_A : Vec F S2x256 .f32 :=
  VS2.read (Elt F) (VS2.writes (Elt F) VS2.junk (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).2.2.1)
theorem scover16_A (y : S2x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).2.2.1, y ∈ pc.1.set :=
  View.cover_of_tiledL (s := S2x256) _ ![1, 256] (by sl_kernel_rfl) y

end A

section B
variable (h1 : ¬q1 i) (h2 : ¬q2 i) (h3 : q3 i) (h4 : ¬q4 i) (h5 : ¬q5 i) (h6 : q6 i) (h7 : ¬q7 i) (x0 : Vec F S200x10000 .f32) (x1 : Vec F S10000x256 .f32) (x2 x3 : Vec F S256x256 .f32) (x4 x5 x6 x7 x8 x9 : Vec F S1x256 .f32) (xs14 : Vec F S10000x256 .f32) (xs16 : Vec F S2x256 .f32)

def slab_B : List (View.Piece (Elt F) S10000x256 .bf16) :=
  (kernelRun0_B c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs16).1
def st_B : Vec F S2x256 .f32 :=
  VS2.read (Elt F) (VS2.writes (Elt F) (hsc2.unread xs16) (kernelRun0_B c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs16).2.1)

end B

section C
variable (h1 : ¬q1 i) (h2 : q2 i) (h3 : ¬q3 i) (h4 : q4 i) (h5 : q5 i) (h6 : ¬q6 i) (h7 : ¬q7 i) (x0 : Vec F S200x10000 .f32) (x1 : Vec F S10000x256 .f32) (x2 x3 : Vec F S256x256 .f32) (x4 x5 x6 x7 x8 x9 : Vec F S1x256 .f32) (xs15 : Vec F S10000x256 .bf16) (xs16 : Vec F S2x256 .f32)

def out10_C : Vec F S200x256 .bf16 :=
  VO10.read (Elt F) (VO10.writes (Elt F) VO10.junk (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).1)
theorem cover12_C (y : S200x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).1, y ∈ pc.1.set :=
  View.cover_of_tiledL _ S200x256.size (by sl_kernel_rfl) y
def supp_C : Vec F S10000x256 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).2.1)
theorem scover14_C (y : S10000x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).2.1, y ∈ pc.1.set :=
  View.cover_of_tiledL (s := S10000x256) _ ![2000, 256] (by sl_kernel_rfl) y
def st_C : Vec F S2x256 .f32 :=
  VS2.read (Elt F) (VS2.writes (Elt F) (hsc2.unread xs16) (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).2.2.1)

end C

section D
variable (h1 : ¬q1 i) (h2 : ¬q2 i) (h3 : ¬q3 i) (h4 : q4 i) (h5 : ¬q5 i) (h6 : q6 i) (h7 : ¬q7 i) (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32)

def out10_D : Vec F S200x256 .bf16 :=
  VO10.read (Elt F) (VO10.writes (Elt F) VO10.junk (kernelRun0_D c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1)
theorem cover12_D (y : S200x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1, y ∈ pc.1.set :=
  View.cover_of_tiledL _ S200x256.size (by sl_kernel_rfl) y
def st_D : Vec F S2x256 .f32 :=
  VS2.read (Elt F) (VS2.writes (Elt F) (hsc2.unread xs16) (kernelRun0_D c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.1)

end D

section E
variable (h1 : ¬q1 i) (h2 : ¬q2 i) (h3 : ¬q3 i) (h4 : q4 i) (h5 : ¬q5 i) (h6 : q6 i) (h7 : q7 i) (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32)

def out10_E : Vec F S200x256 .bf16 :=
  VO10.read (Elt F) (VO10.writes (Elt F) VO10.junk (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1)
theorem cover12_E (y : S200x256.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1, y ∈ pc.1.set :=
  View.cover_of_tiledL _ S200x256.size (by sl_kernel_rfl) y
def out11_E : Vec F S2x256 .f32 :=
  VO11.read (Elt F) (VO11.writes (Elt F) VO11.junk (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.1)
theorem cover13_E (y : S2x256.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.1, y ∈ pc.1.set :=
  View.cover_of_tiledL (s := S2x256) _ ![1, 256] (by sl_kernel_rfl) y
def st_E : Vec F S2x256 .f32 :=
  VS2.read (Elt F) (VS2.writes (Elt F) (hsc2.unread xs16) (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.2.1)

end E

end Cert.KernelIdeal.Hand

end
-- ==== Proof.Sched0.lean ====
import proofs.«134973_g77017353552286_cont_9to1c4b_820_20_alg».proof.Proof.StateFns
import proofs.«134973_g77017353552286_cont_9to1c4b_820_20_alg».proof.Proof.Gen.KernelIdeal.Launch
import Idealize.ShloMosaic.Lib.Pipeline.FrameBody
set_option maxRecDepth 16384

noncomputable section

namespace Cert.KernelIdeal.Hand

open Idealize.ShloMosaic Idealize.ShloMosaic.TcCoe Cert.KernelIdeal.Gen Idealize.SL Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable {c : Dev nD} (dat : Dat τ (Elt F) Unit ℕ (UR sig nD τ) ℕ cfg0 c)

-- At a numeral `w` the right side is `iblk0 V c w t` by unfolding.
theorem before0_of (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V c (Pipeline.arrRef spec0 w))
    (hafter : ∀ t, (cfg0.win w).cut (cfg0.grid.coords t) (dat.after w t) = iblk0 V c w t) (t : Fin cfg0.N) (d) :
    dat.before w t d = (cfg0.win w).fill (cfg0.grid.coords t) d (iblk0 V c w t) := by
  rw [dat.before_in_eq_fetched w hw hlive hclip (fun t => by rw [hafter]; unfold Dat.blockOf iblk0; rw [hA]) t d]
  unfold Dat.fetched Dat.blockOf iblk0; rw [hA]

end Region0

theorem hq1 : ∀ t : Fin cfg0.N, q1 (grid0.coords t) ↔ t.val = 0 := by decide +kernel
theorem hq2 : ∀ t : Fin cfg0.N, q2 (grid0.coords t) ↔ t.val = 50 := by decide +kernel
theorem hq3 : ∀ t : Fin cfg0.N, q3 (grid0.coords t) ↔ t.val < 50 := by decide +kernel
theorem hq4 : ∀ t : Fin cfg0.N, q4 (grid0.coords t) ↔ 50 ≤ t.val := by decide +kernel
theorem hq5 : ∀ t : Fin cfg0.N, q5 (grid0.coords t) ↔ t.val % 50 = 0 := by decide +kernel
theorem hq6 : ∀ t : Fin cfg0.N, q6 (grid0.coords t) ↔ ¬ t.val % 50 = 0 := by decide +kernel
theorem hq7 : ∀ t : Fin cfg0.N, q7 (grid0.coords t) ↔ t.val = 99 := by decide +kernel

theorem off1_eq : ∀ t : Fin cfg0.N, t.val < 50 → k0_off1 (grid0.coords t) = ![200 * t.val, 0] := by decide +kernel

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl

theorem idle10 : ∀ t : Fin cfg0.N, ¬q4 (grid0.coords t) → cfg0.idle 10 (grid0.coords t) = true := by decide +kernel
theorem live10 : ∀ t : Fin cfg0.N, q4 (grid0.coords t) → cfg0.idle 10 (grid0.coords t) = false := by decide +kernel
theorem noFlush10 : ∀ t : Fin cfg0.N, ¬q4 (grid0.coords t) → (cfg0.win 10).flush t = false := by decide +kernel
theorem idle11 : ∀ t : Fin cfg0.N, ¬q7 (grid0.coords t) → cfg0.idle 11 (grid0.coords t) = true := by decide +kernel
theorem live11 : ∀ t : Fin cfg0.N, q7 (grid0.coords t) → cfg0.idle 11 (grid0.coords t) = false := by decide +kernel
theorem noFlush11 : ∀ t : Fin cfg0.N, ¬q7 (grid0.coords t) → (cfg0.win 11).flush t = false := by decide +kernel

section
variable (t : Fin cfg0.N)
abbrev ms0_0 : Memref sig .tc .vmem S200x10000 .f32 := win0_0.stage (cfg0.slots t 0)
abbrev hs0_0 : (ms0_0 t).IsWhole := stage_whole0 0 (cfg0.slots t 0)
abbrev ms0_1 : Memref sig .tc .vmem S10000x256 .f32 := win0_1.stage (cfg0.slots t 1)
abbrev hs0_1 : (ms0_1 t).IsWhole := stage_whole0 1 (cfg0.slots t 1)
abbrev ms0_2 : Memref sig .tc .vmem S256x256 .f32 := win0_2.stage (cfg0.slots t 2)
abbrev hs0_2 : (ms0_2 t).IsWhole := stage_whole0 2 (cfg0.slots t 2)
abbrev ms0_3 : Memref sig .tc .vmem S256x256 .f32 := win0_3.stage (cfg0.slots t 3)
abbrev hs0_3 : (ms0_3 t).IsWhole := stage_whole0 3 (cfg0.slots t 3)
abbrev ms0_4 : Memref sig .tc .vmem S1x256 .f32 := win0_4.stage (cfg0.slots t 4)
abbrev hs0_4 : (ms0_4 t).IsWhole := stage_whole0 4 (cfg0.slots t 4)
abbrev ms0_5 : Memref sig .tc .vmem S1x256 .f32 := win0_5.stage (cfg0.slots t 5)
abbrev hs0_5 : (ms0_5 t).IsWhole := stage_whole0 5 (cfg0.slots t 5)
abbrev ms0_6 : Memref sig .tc .vmem S1x256 .f32 := win0_6.stage (cfg0.slots t 6)
abbrev hs0_6 : (ms0_6 t).IsWhole := stage_whole0 6 (cfg0.slots t 6)
abbrev ms0_7 : Memref sig .tc .vmem S1x256 .f32 := win0_7.stage (cfg0.slots t 7)
abbrev hs0_7 : (ms0_7 t).IsWhole := stage_whole0 7 (cfg0.slots t 7)
abbrev ms0_8 : Memref sig .tc .vmem S1x256 .f32 := win0_8.stage (cfg0.slots t 8)
abbrev hs0_8 : (ms0_8 t).IsWhole := stage_whole0 8 (cfg0.slots t 8)
abbrev ms0_9 : Memref sig .tc .vmem S1x256 .f32 := win0_9.stage (cfg0.slots t 9)
abbrev hs0_9 : (ms0_9 t).IsWhole := stage_whole0 9 (cfg0.slots t 9)
abbrev ms0_10 : Memref sig .tc .vmem S200x256 .bf16 := win0_10.stage (cfg0.slots t 10)
abbrev hs0_10 : (ms0_10 t).IsWhole := stage_whole0 10 (cfg0.slots t 10)
abbrev ms0_11 : Memref sig .tc .vmem S2x256 .f32 := win0_11.stage (cfg0.slots t 11)
abbrev hs0_11 : (ms0_11 t).IsWhole := stage_whole0 11 (cfg0.slots t 11)
end

def Rest5 (c : Dev nD) : sProp 𝕄 :=
  bigSepL [cc1_stg0_0, cc1_stg0_1, cc1_stg1_0, cc1_stg2_0, cc1_stg2_1] fun b =>
    iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ Rest5 (F := F) c) ∗ (∃ r, prngReg c r)) := by
  unfold Pipeline.ΦA; rw [scopedRest0_eq]; simp only [scM0, scM1, scM2, owns_whole, Rest5]; rfl

end Cert.KernelIdeal.Hand

end
-- ==== Proof.Reg0a.lean ====
import proofs.«134973_g77017353552286_cont_9to1c4b_820_20_alg».proof.Proof.Sched0
import proofs.«134973_g77017353552286_cont_9to1c4b_820_20_alg».proof.Proof.Gen.KernelIdeal.Points
set_option maxRecDepth 16384

noncomputable section

namespace Cert.KernelIdeal.Hand

open Idealize.ShloMosaic Idealize.ShloMosaic.TcCoe Idealize.SL Idealize.SL.RA Idealize.SL.BI Idealize.SL.BI.BIBase Idealize.SL.Sem Idealize.ShloMosaic.Pipeline Idealize.ShloMosaic.Rounds Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (t : Fin cfg0.N)

theorem N0' : cfg0.N = 100 := N_0
theorem lt_N {n : ℕ} (h : n < 100) : n < cfg0.N := by rw [N0']; exact h

abbrev pt (n : ℕ) (h : n < 100) : Fin cfg0.N := ⟨n, lt_N h⟩

theorem condsA (h : t.val = 0) : q1 (grid0.coords t) ∧ ¬q2 (grid0.coords t) ∧ q3 (grid0.coords t) ∧ ¬q4 (grid0.coords t) ∧ q5 (grid0.coords t) ∧ ¬q6 (grid0.coords t) ∧ ¬q7 (grid0.coords t) := by
  rw [hq1, hq2, hq3, hq4, hq5, hq6, hq7]; omega

theorem condsB (h0 : t.val ≠ 0) (h : t.val < 50) : ¬q1 (grid0.coords t) ∧ ¬q2 (grid0.coords t) ∧ q3 (grid0.coords t) ∧ ¬q4 (grid0.coords t) ∧ ¬q5 (grid0.coords t) ∧ q6 (grid0.coords t) ∧ ¬q7 (grid0.coords t) := by
  rw [hq1, hq2, hq3, hq4, hq5, hq6, hq7]; omega

theorem condsC (h : t.val = 50) : ¬q1 (grid0.coords t) ∧ q2 (grid0.coords t) ∧ ¬q3 (grid0.coords t) ∧ q4 (grid0.coords t) ∧ q5 (grid0.coords t) ∧ ¬q6 (grid0.coords t) ∧ ¬q7 (grid0.coords t) := by
  rw [hq1, hq2, hq3, hq4, hq5, hq6, hq7]; omega

theorem condsD (h : 50 < t.val) (h' : t.val < 99) : ¬q1 (grid0.coords t) ∧ ¬q2 (grid0.coords t) ∧ ¬q3 (grid0.coords t) ∧ q4 (grid0.coords t) ∧ ¬q5 (grid0.coords t) ∧ q6 (grid0.coords t) ∧ ¬q7 (grid0.coords t) := by
  rw [hq1, hq2, hq3, hq4, hq5, hq6, hq7]; omega

theorem condsE (h : t.val = 99) : ¬q1 (grid0.coords t) ∧ ¬q2 (grid0.coords t) ∧ ¬q3 (grid0.coords t) ∧ q4 (grid0.coords t) ∧ ¬q5 (grid0.coords t) ∧ q6 (grid0.coords t) ∧ q7 (grid0.coords t) := by
  rw [hq1, hq2, hq3, hq4, hq5, hq6, hq7]; omega

abbrev at0 {p1 p2 p3 p4 p5 p6 p7 : grid0.Coords → Prop} {γ : Type} (c : Dev nD) (t : Fin cfg0.N)
    (f : ∀ i (a2 : Memref sig .tc .vmem S200x10000 .f32), a2.IsWhole → ∀ a3 : Memref sig .tc .vmem S10000x256 .f32, a3.IsWhole →
      ∀ a4 : Memref sig .tc .vmem S256x256 .f32, a4.IsWhole → ∀ a5 : Memref sig .tc .vmem S256x256 .f32, a5.IsWhole →
      ∀ a6 : Memref sig .tc .vmem S1x256 .f32, a6.IsWhole → ∀ a7 : Memref sig .tc .vmem S1x256 .f32, a7.IsWhole →
      ∀ a8 : Memref sig .tc .vmem S1x256 .f32, a8.IsWhole → ∀ a9 : Memref sig .tc .vmem S1x256 .f32, a9.IsWhole →
      ∀ a10 : Memref sig .tc .vmem S1x256 .f32, a10.IsWhole → ∀ a11 : Memref sig .tc .vmem S1x256 .f32, a11.IsWhole →
      ∀ a12 : Memref sig .tc .vmem S200x256 .bf16, a12.IsWhole → ∀ a13 : Memref sig .tc .vmem S2x256 .f32, a13.IsWhole →
      p1 i → p2 i → p3 i → p4 i → p5 i → p6 i → p7 i →
      Vec F S200x10000 .f32 → Vec F S10000x256 .f32 → Vec F S256x256 .f32 → Vec F S256x256 .f32 → Vec F S1x256 .f32 →
      Vec F S1x256 .f32 → Vec F S1x256 .f32 → Vec F S1x256 .f32 → Vec F S1x256 .f32 → Vec F S1x256 .f32 → γ)
    (hc : p1 (grid0.coords t) ∧ p2 (grid0.coords t) ∧ p3 (grid0.coords t) ∧ p4 (grid0.coords t) ∧ p5 (grid0.coords t) ∧ p6 (grid0.coords t) ∧ p7 (grid0.coords t)) : γ :=
  f (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc.1 hc.2.1 hc.2.2.1 hc.2.2.2.1 hc.2.2.2.2.1 hc.2.2.2.2.2.1 hc.2.2.2.2.2.2 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

def suppA_at (h : t.val = 0) : Vec F S10000x256 .f32 :=
  at0 V c t (supp_A c) (condsA t h)

def slabA_at (h : t.val = 0) : List (View.Piece (Elt F) S10000x256 .bf16) :=
  at0 V c t (slab_A c) (condsA t h)

def stA_at (h : t.val = 0) : Vec F S2x256 .f32 :=
  at0 V c t (st_A c) (condsA t h)

def slabB_at (h0 : t.val ≠ 0) (h : t.val < 50) (xs14 : Vec F S10000x256 .f32) (xs16 : Vec F S2x256 .f32) : List (View.Piece (Elt F) S10000x256 .bf16) :=
  at0 V c t (slab_B c) (condsB t h0 h) xs14 xs16

def stB_at (h0 : t.val ≠ 0) (h : t.val < 50) (xs14 : Vec F S10000x256 .f32) (xs16 : Vec F S2x256 .f32) : Vec F S2x256 .f32 :=
  at0 V c t (st_B c) (condsB t h0 h) xs14 xs16

def out10C_at (h : t.val = 50) (xs15 : Vec F S10000x256 .bf16) (xs16 : Vec F S2x256 .f32) : Vec F S200x256 .bf16 :=
  at0 V c t (out10_C c) (condsC t h) xs15 xs16

def suppC_at (h : t.val = 50) (xs15 : Vec F S10000x256 .bf16) (xs16 : Vec F S2x256 .f32) : Vec F S10000x256 .f32 :=
  at0 V c t (supp_C c) (condsC t h) xs15 xs16

def stC_at (h : t.val = 50) (xs15 : Vec F S10000x256 .bf16) (xs16 : Vec F S2x256 .f32) : Vec F S2x256 .f32 :=
  at0 V c t (st_C c) (condsC t h) xs15 xs16

def out10D_at (h : 50 < t.val) (h' : t.val < 99) (xs14 : Vec F S10000x256 .f32) (xs15 : Vec F S10000x256 .bf16) (xs16 : Vec F S2x256 .f32) : Vec F S200x256 .bf16 :=
  at0 V c t (out10_D c) (condsD t h h') xs14 xs15 xs16

def stD_at (h : 50 < t.val) (h' : t.val < 99) (xs14 : Vec F S10000x256 .f32) (xs15 : Vec F S10000x256 .bf16) (xs16 : Vec F S2x256 .f32) : Vec F S2x256 .f32 :=
  at0 V c t (st_D c) (condsD t h h') xs14 xs15 xs16

def out10E_at (h : t.val = 99) (xs14 : Vec F S10000x256 .f32) (xs15 : Vec F S10000x256 .bf16) (xs16 : Vec F S2x256 .f32) : Vec F S200x256 .bf16 :=
  at0 V c t (out10_E c) (condsE t h) xs14 xs15 xs16

def out11E_at (h : t.val = 99) (xs14 : Vec F S10000x256 .f32) (xs15 : Vec F S10000x256 .bf16) (xs16 : Vec F S2x256 .f32) : Vec F S2x256 .f32 :=
  at0 V c t (out11_E c) (condsE t h) xs14 xs15 xs16

def stE_at (h : t.val = 99) (xs14 : Vec F S10000x256 .f32) (xs15 : Vec F S10000x256 .bf16) (xs16 : Vec F S2x256 .f32) : Vec F S2x256 .f32 :=
  at0 V c t (st_E c) (condsE t h) xs14 xs15 xs16

def ph0 : (n : ℕ) → n < 50 → Vec F S10000x256 .f32 × Vec F S2x256 .f32 × List (View.Piece (Elt F) S10000x256 .bf16)
  | 0, _ => (suppA_at V c (pt 0 (by decide)) rfl, stA_at V c (pt 0 (by decide)) rfl, slabA_at V c (pt 0 (by decide)) rfl)
  | n + 1, hn =>
    (( ph0 n (Nat.lt_of_succ_lt hn)).1,
     stB_at V c (pt (n + 1) (by omega)) (Nat.succ_ne_zero n) hn (ph0 n (Nat.lt_of_succ_lt hn)).1 (ph0 n (Nat.lt_of_succ_lt hn)).2.1,
     slabB_at V c (pt (n + 1) (by omega)) (Nat.succ_ne_zero n) hn (ph0 n (Nat.lt_of_succ_lt hn)).1 (ph0 n (Nat.lt_of_succ_lt hn)).2.1 ++ (ph0 n (Nat.lt_of_succ_lt hn)).2.2)

theorem ph0_zero (h : 0 < 50) :
    ph0 V c 0 h = (suppA_at V c (pt 0 (by decide)) rfl, stA_at V c (pt 0 (by decide)) rfl, slabA_at V c (pt 0 (by decide)) rfl) := rfl

theorem ph0_succ (n : ℕ) (hn : n + 1 < 50) :
    ph0 V c (n + 1) hn = ((ph0 V c n (Nat.lt_of_succ_lt hn)).1,
      stB_at V c (pt (n + 1) (by omega)) (Nat.succ_ne_zero n) hn (ph0 V c n (Nat.lt_of_succ_lt hn)).1 (ph0 V c n (Nat.lt_of_succ_lt hn)).2.1,
      slabB_at V c (pt (n + 1) (by omega)) (Nat.succ_ne_zero n) hn (ph0 V c n (Nat.lt_of_succ_lt hn)).1 (ph0 V c n (Nat.lt_of_succ_lt hn)).2.1 ++ (ph0 V c n (Nat.lt_of_succ_lt hn)).2.2) := rfl

def h1Full : Vec F S10000x256 .bf16 :=
  VS1.read (Elt F) (VS1.writes (Elt F) VS1.junk (ph0 V c 49 (by decide)).2.2)

def ph1 : (k : ℕ) → k < 50 → Vec F S200x256 .bf16 × Vec F S2x256 .f32 × Vec F S10000x256 .f32 × Vec F S2x256 .f32
  | 0, _ =>
    (out10C_at V c (pt 50 (by decide)) rfl (h1Full V c) (ph0 V c 49 (by decide)).2.1, VO11.read (Elt F) VO11.junk,
     suppC_at V c (pt 50 (by decide)) rfl (h1Full V c) (ph0 V c 49 (by decide)).2.1, stC_at V c (pt 50 (by decide)) rfl (h1Full V c) (ph0 V c 49 (by decide)).2.1)
  | k + 1, hk =>
    if hE : k + 1 = 49 then
      (out10E_at V c (pt (50 + (k + 1)) (by omega)) (by show 50 + (k + 1) = 99; omega) (ph1 k (Nat.lt_of_succ_lt hk)).2.2.1 (h1Full V c) (ph1 k (Nat.lt_of_succ_lt hk)).2.2.2,
       out11E_at V c (pt (50 + (k + 1)) (by omega)) (by show 50 + (k + 1) = 99; omega) (ph1 k (Nat.lt_of_succ_lt hk)).2.2.1 (h1Full V c) (ph1 k (Nat.lt_of_succ_lt hk)).2.2.2,
       (ph1 k (Nat.lt_of_succ_lt hk)).2.2.1,
       stE_at V c (pt (50 + (k + 1)) (by omega)) (by show 50 + (k + 1) = 99; omega) (ph1 k (Nat.lt_of_succ_lt hk)).2.2.1 (h1Full V c) (ph1 k (Nat.lt_of_succ_lt hk)).2.2.2)
    else
      (out10D_at V c (pt (50 + (k + 1)) (by omega)) (by show 50 < 50 + (k + 1); omega) (by show 50 + (k + 1) < 99; omega) (ph1 k (Nat.lt_of_succ_lt hk)).2.2.1 (h1Full V c) (ph1 k (Nat.lt_of_succ_lt hk)).2.2.2,
       (ph1 k (Nat.lt_of_succ_lt hk)).2.1,
       (ph1 k (Nat.lt_of_succ_lt hk)).2.2.1,
       stD_at V c (pt (50 + (k + 1)) (by omega)) (by show 50 < 50 + (k + 1); omega) (by show 50 + (k + 1) < 99; omega) (ph1 k (Nat.lt_of_succ_lt hk)).2.2.1 (h1Full V c) (ph1 k (Nat.lt_of_succ_lt hk)).2.2.2)

theorem ph1_zero (h : 0 < 50) :
    ph1 V c 0 h = (out10C_at V c (pt 50 (by decide)) rfl (h1Full V c) (ph0 V c 49 (by decide)).2.1, VO11.read (Elt F) VO11.junk,
     suppC_at V c (pt 50 (by decide)) rfl (h1Full V c) (ph0 V c 49 (by decide)).2.1, stC_at V c (pt 50 (by decide)) rfl (h1Full V c) (ph0 V c 49 (by decide)).2.1) := rfl

theorem ph1_succ_last (k : ℕ) (hk : k + 1 < 50) (hE : k + 1 = 49) :
    ph1 V c (k + 1) hk =
      (out10E_at V c (pt (50 + (k + 1)) (by omega)) (by show 50 + (k + 1) = 99; omega) (ph1 V c k (Nat.lt_of_succ_lt hk)).2.2.1 (h1Full V c) (ph1 V c k (Nat.lt_of_succ_lt hk)).2.2.2,
       out11E_at V c (pt (50 + (k + 1)) (by omega)) (by show 50 + (k + 1) = 99; omega) (ph1 V c k (Nat.lt_of_succ_lt hk)).2.2.1 (h1Full V c) (ph1 V c k (Nat.lt_of_succ_lt hk)).2.2.2,
       (ph1 V c k (Nat.lt_of_succ_lt hk)).2.2.1,
       stE_at V c (pt (50 + (k + 1)) (by omega)) (by show 50 + (k + 1) = 99; omega) (ph1 V c k (Nat.lt_of_succ_lt hk)).2.2.1 (h1Full V c) (ph1 V c k (Nat.lt_of_succ_lt hk)).2.2.2) :=
  dif_pos hE

theorem ph1_succ_mid (k : ℕ) (hk : k + 1 < 50) (hE : ¬ k + 1 = 49) :
    ph1 V c (k + 1) hk =
      (out10D_at V c (pt (50 + (k + 1)) (by omega)) (by show 50 < 50 + (k + 1); omega) (by show 50 + (k + 1) < 99; omega) (ph1 V c k (Nat.lt_of_succ_lt hk)).2.2.1 (h1Full V c) (ph1 V c k (Nat.lt_of_succ_lt hk)).2.2.2,
       (ph1 V c k (Nat.lt_of_succ_lt hk)).2.1,
       (ph1 V c k (Nat.lt_of_succ_lt hk)).2.2.1,
       stD_at V c (pt (50 + (k + 1)) (by omega)) (by show 50 < 50 + (k + 1); omega) (by show 50 + (k + 1) < 99; omega) (ph1 V c k (Nat.lt_of_succ_lt hk)).2.2.1 (h1Full V c) (ph1 V c k (Nat.lt_of_succ_lt hk)).2.2.2) :=
  dif_neg hE

def PhiS : (n : ℕ) → n ≤ cfg0.N → sProp 𝕄
  | 0, _ => Pipeline.ΦA spec0 c
  | n + 1, hn =>
    if h : n < 50 then
      iprop((owns (c : Thread nD τ) scM0 fullShare (ph0 V c n h).1
          ∗ (∃ f, VS1.loc (c : Thread nD τ) ↦[VS1.set]{fullShare} VS1.writes (Elt F) f (ph0 V c n h).2.2)
          ∗ owns (c : Thread nD τ) scM2 fullShare (ph0 V c n h).2.1 ∗ Rest5 (F := F) c) ∗ (∃ r, prngReg c r))
    else
      iprop((owns (c : Thread nD τ) scM0 fullShare (ph1 V c (n - 50) (by have := hn; rw [N0'] at this; omega)).2.2.1
          ∗ owns (c : Thread nD τ) scM1 fullShare (h1Full V c)
          ∗ owns (c : Thread nD τ) scM2 fullShare (ph1 V c (n - 50) (by have := hn; rw [N0'] at this; omega)).2.2.2 ∗ Rest5 (F := F) c) ∗ (∃ r, prngReg c r))

theorem PhiS_zero (n : ℕ) (h : n ≤ cfg0.N) (hz : n = 0) : PhiS V c n h = Pipeline.ΦA spec0 c := by
  subst hz; rfl

theorem PhiS_lo (n : ℕ) (hn : n + 1 ≤ cfg0.N) (h : n < 50) :
    PhiS V c (n + 1) hn = iprop((owns (c : Thread nD τ) scM0 fullShare (ph0 V c n h).1
          ∗ (∃ f, VS1.loc (c : Thread nD τ) ↦[VS1.set]{fullShare} VS1.writes (Elt F) f (ph0 V c n h).2.2)
          ∗ owns (c : Thread nD τ) scM2 fullShare (ph0 V c n h).2.1 ∗ Rest5 (F := F) c) ∗ (∃ r, prngReg c r)) :=
  dif_pos h

theorem PhiS_hi (n : ℕ) (hn : n + 1 ≤ cfg0.N) (h : ¬ n < 50) (hk : n - 50 < 50) :
    PhiS V c (n + 1) hn = iprop((owns (c : Thread nD τ) scM0 fullShare (ph1 V c (n - 50) hk).2.2.1
          ∗ owns (c : Thread nD τ) scM1 fullShare (h1Full V c)
          ∗ owns (c : Thread nD τ) scM2 fullShare (ph1 V c (n - 50) hk).2.2.2 ∗ Rest5 (F := F) c) ∗ (∃ r, prngReg c r)) :=
  dif_neg h

def out10At : Vec F S200x256 .bf16 :=
  if h : 50 ≤ t.val then (ph1 V c (t.val - 50) (by have := lt_of_lt_of_eq t.isLt N0'; omega)).1 else VO10.read (Elt F) VO10.junk

def out11At : Vec F S2x256 .f32 := (ph1 V c 49 (by decide)).2.1

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out10At V c t
    | ⟨11, _⟩ => out11At V c
  Φ t := PhiS V c t.val (Nat.le_of_lt_succ t.isLt)
  q _ := fullShare
  owed _ := 0

theorem A_eq0 (w : Fin cfg0.W) : (dat0 V c).A w = V c (Pipeline.arrRef spec0 w) := by
  dsimp only [dat0]

theorem PhiS_castSucc :
    (dat0 V c).Φ t.castSucc = PhiS V c t.val (Nat.le_of_lt t.isLt) := by
  dsimp only [dat0]; simp only [Fin.coe_castSucc]

theorem after0_10 : (dat0 V c).after 10 t = out10At V c t := by dsimp only [dat0]
theorem after0_11 : (dat0 V c).after 11 t = out11At V c := by dsimp only [dat0]

theorem before0_0 (d) : (dat0 V c).before 0 t d = iblk0 V c 0 t :=
  before0_of V _ 0 rfl (fun _ => rfl) (fun _ _ _ => rfl) rfl (fun _ => rfl) t d
theorem before0_1 (d) : (dat0 V c).before 1 t d = iblk0 V c 1 t :=
  before0_of V _ 1 rfl (fun _ => rfl) (fun _ _ _ => rfl) rfl (fun _ => rfl) t d
theorem before0_2 (d) : (dat0 V c).before 2 t d = iblk0 V c 2 t :=
  before0_of V _ 2 rfl (fun _ => rfl) (fun _ _ _ => rfl) rfl (fun _ => rfl) t d
theorem before0_3 (d) : (dat0 V c).before 3 t d = iblk0 V c 3 t :=
  before0_of V _ 3 rfl (fun _ => rfl) (fun _ _ _ => rfl) rfl (fun _ => rfl) t d
theorem before0_4 (d) : (dat0 V c).before 4 t d = iblk0 V c 4 t :=
  before0_of V _ 4 rfl (fun _ => rfl) (fun _ _ _ => rfl) rfl (fun _ => rfl) t d
theorem before0_5 (d) : (dat0 V c).before 5 t d = iblk0 V c 5 t :=
  before0_of V _ 5 rfl (fun _ => rfl) (fun _ _ _ => rfl) rfl (fun _ => rfl) t d
theorem before0_6 (d) : (dat0 V c).before 6 t d = iblk0 V c 6 t :=
  before0_of V _ 6 rfl (fun _ => rfl) (fun _ _ _ => rfl) rfl (fun _ => rfl) t d
theorem before0_7 (d) : (dat0 V c).before 7 t d = iblk0 V c 7 t :=
  before0_of V _ 7 rfl (fun _ => rfl) (fun _ _ _ => rfl) rfl (fun _ => rfl) t d
theorem before0_8 (d) : (dat0 V c).before 8 t d = iblk0 V c 8 t :=
  before0_of V _ 8 rfl (fun _ => rfl) (fun _ _ _ => rfl) rfl (fun _ => rfl) t d
theorem before0_9 (d) : (dat0 V c).before 9 t d = iblk0 V c 9 t :=
  before0_of V _ 9 rfl (fun _ => rfl) (fun _ _ _ => rfl) rfl (fun _ => rfl) t d

def bodyPre0 : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

theorem bodyPost0_eq : bodyPost0 V c t = iprop((dat0 V c).Φ t.succ ∗ (dat0 V c).owesAt () t.castSucc
    ∗ owns (c : Thread nD τ) (ms0_0 t) fullShare (iblk0 V c 0 t)
    ∗ owns (c : Thread nD τ) (ms0_1 t) fullShare (iblk0 V c 1 t)
    ∗ owns (c : Thread nD τ) (ms0_2 t) fullShare (iblk0 V c 2 t)
    ∗ owns (c : Thread nD τ) (ms0_3 t) fullShare (iblk0 V c 3 t)
    ∗ owns (c : Thread nD τ) (ms0_4 t) fullShare (iblk0 V c 4 t)
    ∗ owns (c : Thread nD τ) (ms0_5 t) fullShare (iblk0 V c 5 t)
    ∗ owns (c : Thread nD τ) (ms0_6 t) fullShare (iblk0 V c 6 t)
    ∗ owns (c : Thread nD τ) (ms0_7 t) fullShare (iblk0 V c 7 t)
    ∗ owns (c : Thread nD τ) (ms0_8 t) fullShare (iblk0 V c 8 t)
    ∗ owns (c : Thread nD τ) (ms0_9 t) fullShare (iblk0 V c 9 t)
    ∗ (dat0 V c).leavesExact 10 t ∗ (dat0 V c).leavesExact 11 t) := by
  unfold bodyPost0 Dat.leavesExact
  rewrite [liveAt0_0 t]
  rfl

end Cert.KernelIdeal.Hand

end
-- ==== Proof.SbA.lean ====
import proofs.«134973_g77017353552286_cont_9to1c4b_820_20_alg».proof.Proof.Reg0a
set_option maxRecDepth 16384

noncomputable section

namespace Cert.KernelIdeal.Hand

open Idealize.ShloMosaic Idealize.ShloMosaic.TcCoe Idealize.SL Idealize.SL.RA Idealize.SL.BI Idealize.SL.BI.BIBase Idealize.SL.Sem Idealize.ShloMosaic.Pipeline Idealize.ShloMosaic.Rounds Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_A (c : Dev nD) (t : Fin cfg0.N) (h : t.val = 0) :
    bodyPre0 V c t ⊢ wp frame (wpE (defs₀ (F := F)) Variants.none c none) Set.univ (bodyAt0 t) (fun _ => bodyPost0 V c t) := by
  obtain ⟨n, hn⟩ := t
  have hn0 : n = 0 := h
  subst hn0
  generalize ht : (⟨0, hn⟩ : Fin cfg0.N) = t at h ⊢
  have hc := condsA t h
  have hlo : t.val < 50 := by omega
  rw [bodyPost0_eq]
  unfold bodyPre0 bodyAt0
  simp only [before0_0, before0_1, before0_2, before0_3, before0_4, before0_5, before0_6, before0_7, before0_8, before0_9]
  rw [show (dat0 V c).Φ t.succ = PhiS V c (t.val + 1) t.isLt from rfl, PhiS_lo V c t.val t.isLt hlo]
  rw [show ph0 V c t.val hlo = (suppA_at V c t h, stA_at V c t h, slabA_at V c t h) from by subst ht; rfl]
  dsimp only
  unfold suppA_at stA_at slabA_at at0 supp_A st_A slab_A
  rw [Dat.leavesExact_idle (dat0 V c) 10 t (idle10 t hc.2.2.2.1) (noFlush10 t hc.2.2.2.1)]
  rw [Dat.leavesExact_idle (dat0 V c) 11 t (idle11 t hc.2.2.2.2.2.2) (noFlush11 t hc.2.2.2.2.2.2)]
  rw [PhiS_castSucc V c t, PhiS_zero V c _ _ h, PhiA0_eq]
  rw [show (iprop(∃ d, owns (c : Thread nD τ) scM1 fullShare d) : sProp 𝕄)
      = iprop(∃ d, ∃ g, ⌜VS1.read (Elt F) g = d⌝ ∗ (VS1.loc (c : Thread nD τ) ↦[VS1.set]{fullShare} g)) from rfl]
  iintro ⟨⟨⟨HS0, ⟨%d15, %g15, -, HS1⟩, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _).2.2.2 ((dat0 V c).before 10 t d10) ((dat0 V c).before 11 t d11) g15 Set.univ _)
  iframe H0 H1 H2 H3 H4 H5 H6 H7 H8 H9 H10 H11 HS0 HS1 HS2
  iintro ⟨H0, H1, H2, H3, H4, H5, H6, H7, H8, H9, H10, H11, ⟨%e14, HS0⟩, HS1, ⟨%e16, HS2⟩⟩
  iframe Ho H0 H1 H2 H3 H4 H5 H6 H7 H8 H9
  isplitl [HS0 HS1 HS2 HR Hg]
  · isplitl [HS0 HS1 HS2 HR]
    · isplitl [HS0]
      · unfold owns; iexists _; isplitr
        swap; · iexact HS0
        ipureintro; exact View.read_writes_of_cover _ _ _ _ _ (scover14_A c _ _ _ _ _ _ _ _ _ _ _ _ _ _ _ _ _ _ _ _ _ _ _ _ _ _ _ _ _ _ _ _ _ _ _ _ _ _ _ _ _ _)
      isplitl [HS1]
      · iexists g15; iexact HS1
      isplitl [HS2]
      · unfold owns; iexists _; isplitr
        swap; · iexact HS2
        ipureintro; exact View.read_writes_of_cover _ _ _ _ _ (scover16_A c _ _ _ _ _ _ _ _ _ _ _ _ _ _ _ _ _ _ _ _ _ _ _ _ _ _ _ _ _ _ _ _ _ _ _ _ _ _ _ _ _ _)
      iexact HR
    iexact Hg
  isplitl [H10]; · iexists _; iexact H10
  iexists _; iexact H11

end Cert.KernelIdeal.Hand

end
-- ==== Proof.SbB.lean ====
import proofs.«134973_g77017353552286_cont_9to1c4b_820_20_alg».proof.Proof.Reg0a
set_option maxRecDepth 16384

noncomputable section

namespace Cert.KernelIdeal.Hand

open Idealize.ShloMosaic Idealize.ShloMosaic.TcCoe Idealize.SL Idealize.SL.BI Idealize.SL.BI.BIBase Idealize.SL.Sem Idealize.ShloMosaic.Pipeline Cert.KernelIdeal Cert.KernelIdeal.Gen

variable {F : FTy → Type} [FloatOps F]

variable (V : (c : Dev nD) → (b : Ref sig .tc) → Buf (Elt F) ((c : Thread nD τ).loc b))

set_option maxHeartbeats 4800000 in
theorem sound_B (c : Dev nD) (t : Fin cfg0.N) (h0 : t.val ≠ 0) (h : t.val < 50) :
    bodyPre0 V c t ⊢ wp frame (wpE (defs₀ (F := F)) Variants.none c none) Set.univ (bodyAt0 t) (fun _ => bodyPost0 V c t) := by
  obtain ⟨n, hn⟩ := t
  obtain ⟨m, rfl⟩ : ∃ m, n = m + 1 := ⟨n - 1, by have : n ≠ 0 := h0; omega⟩
  have hm : m + 1 < 50 := h
  have hm' : m < 50 := Nat.lt_of_succ_lt hm
  have hc := condsB _ h0 h
  rw [bodyPost0_eq]
  unfold bodyPre0 bodyAt0
  simp only [before0_0, before0_1, before0_2, before0_3, before0_4, before0_5, before0_6, before0_7, before0_8, before0_9]
  rw [show (dat0 V c).Φ (Fin.succ ⟨m + 1, hn⟩) = PhiS V c (m + 1 + 1) hn from rfl, PhiS_lo V c (m + 1) hn hm]
  rw [show (dat0 V c).Φ (Fin.castSucc ⟨m + 1, hn⟩) = PhiS V c (m + 1) (Nat.le_of_lt hn) from rfl, PhiS_lo V c m (Nat.le_of_lt hn) hm']
  rw [ph0_succ V c m hm]
  rw [Dat.leavesExact_idle (dat0 V c) 10 _ (idle10 _ hc.2.2.2.1) (noFlush10 _ hc.2.2.2.1)]
  rw [Dat.leavesExact_idle (dat0 V c) 11 _ (idle11 _ hc.2.2.2.2.2.2) (noFlush11 _ hc.2.2.2.2.2.2)]
  dsimp only
  iintro ⟨⟨⟨HS0, ⟨%f, HS1⟩, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c _ _ _ _ _ _ _ _ _ _ _ _ _ _ _ _ _ _ _ _ _ _ _ _ _ _ _ _ _ _ _ _ _ _ _ _ _ _ _ _ _ _ _ _ _ _ _ _ (ph0 V c m hm').1 (ph0 V c m hm').2.1).2.2
    ((dat0 V c).before 10 _ d10) ((dat0 V c).before 11 _ d11) (VS1.writes (Elt F) f (ph0 V c m hm').2.2) Set.univ _)
  iframe H0 H1 H2 H3 H4 H5 H6 H7 H8 H9 H10 H11 HS0 HS1 HS2
  iintro ⟨H0, H1, H2, H3, H4, H5, H6, H7, H8, H9, H10, H11, HS0, HS1, ⟨%f', %hf', HS2⟩⟩
  obtain rfl := hsc2.eq_unread hf'
  iframe Ho H0 H1 H2 H3 H4 H5 H6 H7 H8 H9
  isplitl [HS0 HS1 HS2 HR Hg]
  · isplitl [HS0 HS1 HS2 HR]
    · isplitl [HS0]; · iexact HS0
      isplitl [HS1]
      · iexists f
        rw [View.writes_append]
        iexact HS1
      isplitl [HS2]
      · unfold owns; iexists _; isplitr
        swap; · iexact HS2
        ipureintro; rfl
      iexact HR
    iexact Hg
  isplitl [H10]; · iexists _; iexact H10
  iexists _; iexact H11

end Cert.KernelIdeal.Hand

end
-- ==== Proof.SbC.lean ====
import proofs.«134973_g77017353552286_cont_9to1c4b_820_20_alg».proof.Proof.Reg0a
set_option maxRecDepth 16384

noncomputable section

namespace Cert.KernelIdeal.Hand

open Idealize.ShloMosaic Idealize.ShloMosaic.TcCoe Idealize.SL Idealize.SL.RA Idealize.SL.BI Idealize.SL.BI.BIBase Idealize.SL.Sem Idealize.ShloMosaic.Pipeline Cert.KernelIdeal Cert.KernelIdeal.Gen

variable {F : FTy → Type} [FloatOps F]

variable (V : (c : Dev nD) → (b : Ref sig .tc) → Buf (Elt F) ((c : Thread nD τ).loc b))

set_option maxHeartbeats 4800000 in
theorem sound_C (c : Dev nD) (t : Fin cfg0.N) (h : t.val = 50)
    (hcov : ∀ y : S10000x256.Idx, ∃ pc ∈ (ph0 V c 49 (by decide)).2.2, y ∈ pc.1.set) :
    bodyPre0 V c t ⊢ wp frame (wpE (defs₀ (F := F)) Variants.none c none) Set.univ (bodyAt0 t) (fun _ => bodyPost0 V c t) := by
  have htt : pt 50 (by decide) = t := Fin.ext h.symm
  have hc := condsC t h
  rw [bodyPost0_eq]
  unfold bodyPre0 bodyAt0
  simp only [before0_0, before0_1, before0_2, before0_3, before0_4, before0_5, before0_6, before0_7, before0_8, before0_9]
  rw [show (dat0 V c).leavesExact 10 t = owns (c : Thread nD τ) (ms0_10 t) fullShare ((dat0 V c).after 10 t) from by
    unfold Dat.leavesExact; rw [live10 t hc.2.2.2.1], after0_10]
  rw [Dat.leavesExact_idle (dat0 V c) 11 t (idle11 t hc.2.2.2.2.2.2) (noFlush11 t hc.2.2.2.2.2.2)]
  rw [show (dat0 V c).Φ t.succ = PhiS V c (t.val + 1) t.isLt from rfl, PhiS_hi V c t.val _ (by omega) (by omega)]
  unfold out10At
  rw [dif_pos (by omega : 50 ≤ t.val)]
  have e0 : ∀ (k : ℕ) (hk : k < 50), k = 0 → ph1 V c k hk = ph1 V c 0 (by decide) := by
    intro k hk e; subst e; rfl
  rw [e0 (t.val - 50) _ (by omega), ph1_zero]
  have e49 : ∀ (n : ℕ) (hn : n ≤ cfg0.N), n = 50 → PhiS V c n hn = PhiS V c (49 + 1) (by rw [N0']; decide) := by
    intro n hn e; subst e; rfl
  rw [PhiS_castSucc V c t, e49 _ _ h, PhiS_lo V c 49 _ (by decide)]
  subst htt
  dsimp only
  have h50 : (50 : ℕ) < 100 := by decide
  unfold suppC_at stC_at out10C_at at0 supp_C st_C out10_C
  iintro ⟨⟨⟨HS0, ⟨%f1, HS1⟩, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _ (h1Full V c) (ph0 V c 49 (by decide)).2.1).2.2.2 ((dat0 V c).before 11 (pt 50 h50) d11) Set.univ _)
  iframe H0 H1 H2 H3 H4 H5 H6 H7 H8 H9 H11
  isplitl [H10]; · iexists _; iexact H10
  isplitl [HS0]; · iexists _; iexact HS0
  isplitl [HS1]
  · unfold owns; iexists _; isplitr
    swap; · iexact HS1
    ipureintro; unfold h1Full; exact View.read_writes_of_cover _ _ _ _ _ hcov
  isplitl [HS2]; · iexact HS2
  iintro ⟨H0, H1, H2, H3, H4, H5, H6, H7, H8, H9, ⟨%e10, H10⟩, H11, ⟨%es0, HS0⟩, HS1, ⟨%es2, %hes2, HS2⟩⟩
  obtain rfl := hsc2.eq_unread hes2
  iframe Ho H0 H1 H2 H3 H4 H5 H6 H7 H8 H9
  isplitl [HS0 HS1 HS2 HR Hg]
  · isplitr [Hg]
    swap; · iexact Hg
    isplitl [HS0]
    · unfold owns; iexists _; isplitr
      swap; · iexact HS0
      ipureintro; exact View.read_writes_of_cover _ _ _ _ _ (scover14_C c _ _ _ _ _ _ _ _ _ _ _ _ _ _ _ _ _ _ _ _ _ _ _ _ _ _ _ _ _ _ _ _ _ _ _ _ _ _ _ _ _ _ _ _)
    isplitl [HS1]; · iexact HS1
    isplitl [HS2]
    · unfold owns; iexists _; isplitr
      swap; · iexact HS2
      ipureintro; rfl
    iexact HR
  isplitl [H10]
  · unfold owns; iexists _; isplitr
    swap; · iexact H10
    ipureintro; exact View.read_writes_of_cover _ _ _ _ _ (cover12_C c _ _ _ _ _ _ _ _ _ _ _ _ _ _ _ _ _ _ _ _ _ _ _ _ _ _ _ _ _ _ _ _ _ _ _ _ _ _ _ _ _ _ _ _)
  iexists _; iexact H11

end Cert.KernelIdeal.Hand

end
-- ==== Proof.SbD.lean ====
import proofs.«134973_g77017353552286_cont_9to1c4b_820_20_alg».proof.Proof.Reg0a
set_option maxRecDepth 16384

noncomputable section

namespace Cert.KernelIdeal.Hand

open Idealize.ShloMosaic Idealize.ShloMosaic.TcCoe Idealize.SL Idealize.SL.RA Idealize.SL.BI Idealize.SL.BI.BIBase Idealize.SL.Sem Idealize.ShloMosaic.Pipeline Cert.KernelIdeal Cert.KernelIdeal.Gen

variable {F : FTy → Type} [FloatOps F]

variable (V : (c : Dev nD) → (b : Ref sig .tc) → Buf (Elt F) ((c : Thread nD τ).loc b))

theorem ph1_congr (c : Dev nD) (a b : ℕ) (ha : a < 50) (hb : b < 50) (e : a = b) : ph1 V c a ha = ph1 V c b hb := by
  subst e; rfl

theorem Phi_hi (c : Dev nD) (s : Fin (cfg0.N + 1)) (k : ℕ) (hk : k < 50) (e : s.val = 50 + k + 1) :
    (dat0 V c).Φ s = iprop((owns (c : Thread nD τ) scM0 fullShare (ph1 V c k hk).2.2.1
          ∗ owns (c : Thread nD τ) scM1 fullShare (h1Full V c)
          ∗ owns (c : Thread nD τ) scM2 fullShare (ph1 V c k hk).2.2.2 ∗ Rest5 (F := F) c) ∗ (∃ r, prngReg c r)) := by
  obtain ⟨n, hn⟩ := s
  simp only at e
  subst e
  rw [show (dat0 V c).Φ ⟨50 + k + 1, hn⟩ = PhiS V c (50 + k + 1) (Nat.le_of_lt_succ hn) from rfl,
    PhiS_hi V c (50 + k) _ (by omega) (by omega), ph1_congr V c (50 + k - 50) k (by omega) hk (by omega)]

theorem out10At_hi (c : Dev nD) (t : Fin cfg0.N) (k : ℕ) (hk : k < 50) (e : t.val = 50 + k) :
    out10At V c t = (ph1 V c k hk).1 := by
  unfold out10At
  rw [dif_pos (show 50 ≤ t.val by omega)]
  rw [ph1_congr V c (t.val - 50) k _ hk (by omega)]

set_option maxHeartbeats 4800000 in
theorem sound_D (c : Dev nD) (t : Fin cfg0.N) (h : 50 < t.val) (h' : t.val < 99) :
    bodyPre0 V c t ⊢ wp frame (wpE (defs₀ (F := F)) Variants.none c none) Set.univ (bodyAt0 t) (fun _ => bodyPost0 V c t) := by
  obtain ⟨k, hk'⟩ : ∃ k, t.val = 50 + (k + 1) := ⟨t.val - 51, by omega⟩
  have hk : k + 1 < 50 := by omega
  have hc := condsD t h h'
  rw [bodyPost0_eq]
  unfold bodyPre0 bodyAt0
  simp only [before0_0, before0_1, before0_2, before0_3, before0_4, before0_5, before0_6, before0_7, before0_8, before0_9]
  rw [Phi_hi V c t.castSucc k (Nat.lt_of_succ_lt hk) hk', Phi_hi V c t.succ (k + 1) hk (congrArg (· + 1) hk')]
  rw [show (dat0 V c).leavesExact 10 t = owns (c : Thread nD τ) (ms0_10 t) fullShare ((dat0 V c).after 10 t) from by
    unfold Dat.leavesExact; rw [live10 t hc.2.2.2.1], after0_10, out10At_hi V c t (k + 1) hk hk']
  rw [Dat.leavesExact_idle (dat0 V c) 11 t (idle11 t hc.2.2.2.2.2.2) (noFlush11 t hc.2.2.2.2.2.2)]
  rw [ph1_succ_mid V c k hk (by omega)]
  dsimp only
  obtain ⟨n, hn⟩ := t
  simp only at hk'
  subst hk'
  unfold out10D_at stD_at at0 out10_D st_D
  iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_D c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _ (ph1 V c k (Nat.lt_of_succ_lt hk)).2.2.1 (h1Full V c) (ph1 V c k (Nat.lt_of_succ_lt hk)).2.2.2).2.2 _ Set.univ _)
  iframe H0 H1 H2 H3 H4 H5 H6 H7 H8 H9 H11 HS0 HS1 HS2
  isplitl [H10]; · iexists _; iexact H10
  iintro ⟨H0, H1, H2, H3, H4, H5, H6, H7, H8, H9, ⟨%f12, H10⟩, H11, HS0, HS1, ⟨%f16, %hf16, HS2⟩⟩
  obtain rfl := hsc2.eq_unread hf16
  iframe Ho H0 H1 H2 H3 H4 H5 H6 H7 H8 H9
  isplitl [HS0 HS1 HS2 HR Hg]
  · isplitr [Hg]
    · isplitl [HS0]; · iexact HS0
      isplitl [HS1]; · iexact HS1
      isplitl [HS2]
      · unfold owns; iexists _; isplitr
        swap; · iexact HS2
        ipureintro; rfl
      iexact HR
    iexact Hg
  isplitl [H10]
  · unfold owns; iexists _; isplitr
    swap; · iexact H10
    ipureintro; exact View.read_writes_of_cover _ _ _ _ _ (cover12_D c _ _ _ _ _ _ _ _ _ _ _ _ _ _ _ _ _ _ _ _ _ _ _ _ _ _ _ _ _ _ _ _ _ _ _ _ _ _ _ _ _ _ _ _ _)
  iexists _; iexact H11

end Cert.KernelIdeal.Hand

end
-- ==== Proof.SbE.lean ====
import proofs.«134973_g77017353552286_cont_9to1c4b_820_20_alg».proof.Proof.SbD
set_option maxRecDepth 16384

noncomputable section

namespace Cert.KernelIdeal.Hand

open Idealize.ShloMosaic Idealize.ShloMosaic.TcCoe Idealize.SL Idealize.SL.RA Idealize.SL.BI Idealize.SL.BI.BIBase Idealize.SL.Sem Idealize.ShloMosaic.Pipeline Cert.KernelIdeal Cert.KernelIdeal.Gen

variable {F : FTy → Type} [FloatOps F]

variable (V : (c : Dev nD) → (b : Ref sig .tc) → Buf (Elt F) ((c : Thread nD τ).loc b))

theorem out11At_eq (c : Dev nD) (k : ℕ) (hk : k < 50) (e : k = 49) : out11At V c = (ph1 V c k hk).2.1 := by
  unfold out11At
  rw [ph1_congr V c 49 k _ hk e.symm]

set_option maxHeartbeats 4800000 in
theorem sound_E (c : Dev nD) (t : Fin cfg0.N) (h : t.val = 99) :
    bodyPre0 V c t ⊢ wp frame (wpE (defs₀ (F := F)) Variants.none c none) Set.univ (bodyAt0 t) (fun _ => bodyPost0 V c t) := by
  obtain ⟨k, hk'⟩ : ∃ k, t.val = 50 + (k + 1) := ⟨48, by omega⟩
  have hk : k + 1 < 50 := by omega
  have hE : k + 1 = 49 := by omega
  have hc := condsE t h
  rw [bodyPost0_eq]
  unfold bodyPre0 bodyAt0
  simp only [before0_0, before0_1, before0_2, before0_3, before0_4, before0_5, before0_6, before0_7, before0_8, before0_9]
  rw [Phi_hi V c t.castSucc k (Nat.lt_of_succ_lt hk) hk', Phi_hi V c t.succ (k + 1) hk (congrArg (· + 1) hk')]
  rw [show (dat0 V c).leavesExact 10 t = owns (c : Thread nD τ) (ms0_10 t) fullShare ((dat0 V c).after 10 t) from by
    unfold Dat.leavesExact; rw [live10 t hc.2.2.2.1], after0_10, out10At_hi V c t (k + 1) hk hk']
  rw [show (dat0 V c).leavesExact 11 t = owns (c : Thread nD τ) (ms0_11 t) fullShare ((dat0 V c).after 11 t) from by
    unfold Dat.leavesExact; rw [live11 t hc.2.2.2.2.2.2], after0_11, out11At_eq V c (k + 1) hk hE]
  rw [ph1_succ_last V c k hk hE]
  dsimp only
  obtain ⟨n, hn⟩ := t
  simp only at hk'
  subst hk'
  unfold out10E_at out11E_at stE_at at0 out10_E out11_E st_E
  iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_E c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _ (ph1 V c k (Nat.lt_of_succ_lt hk)).2.2.1 (h1Full V c) (ph1 V c k (Nat.lt_of_succ_lt hk)).2.2.2).2.2.2 Set.univ _)
  iframe H0 H1 H2 H3 H4 H5 H6 H7 H8 H9 HS0 HS1 HS2
  isplitl [H10]; · iexists _; iexact H10
  isplitl [H11]; · iexists _; iexact H11
  iintro ⟨H0, H1, H2, H3, H4, H5, H6, H7, H8, H9, ⟨%f12, H10⟩, ⟨%f13, H11⟩, HS0, HS1, ⟨%f16, %hf16, HS2⟩⟩
  obtain rfl := hsc2.eq_unread hf16
  iframe Ho H0 H1 H2 H3 H4 H5 H6 H7 H8 H9
  isplitl [HS0 HS1 HS2 HR Hg]
  · isplitr [Hg]
    · isplitl [HS0]; · iexact HS0
      isplitl [HS1]; · iexact HS1
      isplitl [HS2]
      · unfold owns; iexists _; isplitr
        swap; · iexact HS2
        ipureintro; rfl
      iexact HR
    iexact Hg
  isplitl [H10]
  · unfold owns; iexists _; isplitr
    swap; · iexact H10
    ipureintro; exact View.read_writes_of_cover _ _ _ _ _ (cover12_E c _ _ _ _ _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover13_E c _ _ _ _ _ _ _ _ _ _ _ _ _ _ _ _ _ _ _ _ _ _ _ _ _ _ _ _ _ _ _ _ _ _ _ _ _ _ _ _ _ _ _ _ _)

end Cert.KernelIdeal.Hand

end
-- ==== Proof.Run.lean ====
import proofs.«134973_g77017353552286_cont_9to1c4b_820_20_alg».proof.Proof.Gen.KernelIdeal.Launch
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Rounds
open Idealize.SL Idealize.SL.RA Idealize.SL.BI Idealize.SL.BI.BIBase Idealize.SL.ProofMode
open Idealize.ShloMosaic.Pipeline (Dat BodyObligation)

variable {F : FTy → Type} [FloatOps F]

local notation "𝕄" => MT nD τ sig Unit (Elt F) ℕ (UR sig nD τ) ℕ

abbrev Vals (F : FTy → Type) := (c : Dev nD) → (b : Ref sig .tc) → Buf (Elt F) ((c : Thread nD τ).loc b)
abbrev Dats (F : FTy → Type) (cfg : Pipeline.Cfg sig Λ₀) := Vals F → (c : Dev nD) → Dat τ (Elt F) Unit ℕ (UR sig nD τ) ℕ cfg c
abbrev Owes0 (c : Dev nD) : sProp 𝕄 := iprop(∃ W, owes (c : Thread nD τ) (0 : CellTallies nD τ sig Unit) W)

theorem owesAt_in {cfg : Pipeline.Cfg sig Λ₀} {c : Dev nD} (dat : Dat τ (Elt F) Unit ℕ (UR sig nD τ) ℕ cfg c)
    (h : dat.owed 0 = 0) (hr : dat.recorded 0 = Set.univ) : Owes0 c ⊢ dat.owesAt () 0 := by
  unfold Pipeline.Dat.owesAt Pipeline.owesWithin
  rw [h]
  iintro ⟨%W, HO⟩; iexists W; isplitr
  · ipureintro; exact fun x _ => Or.inl (hr ▸ Set.mem_univ x)
  iexact HO

theorem owesAt_out {cfg : Pipeline.Cfg sig Λ₀} {c : Dev nD} (dat : Dat τ (Elt F) Unit ℕ (UR sig nD τ) ℕ cfg c)
    (t : Fin (cfg.N + 1)) (h : dat.owed t = 0) : dat.owesAt () t ⊢ Owes0 c := by
  unfold Pipeline.Dat.owesAt Pipeline.owesWithin
  rw [h]
  iintro ⟨%W, -, HO⟩; iexists W; iexact HO

/-- The facts about a region's proof data that the launch needs, at every entry contents `V`. -/
structure Hyp (cfg : Pipeline.Cfg sig Λ₀) (dat : Dats F cfg) : Prop where
  hA : ∀ V c w, (dat V c).A w = V c (Pipeline.arrRef cfg.spec w)
  hq : ∀ V c w, (dat V c).q w = fullShare
  how : ∀ V c t, (dat V c).owed t = 0
  hrec : ∀ V c, (dat V c).recorded 0 = Set.univ
  hbody : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)
abbrev Hyp0 := Hyp (F := F) cfg0
abbrev Hyp1 := Hyp (F := F) cfg1

variable (dat0 : Dats F cfg0) (dat1 : Dats F cfg1) (h0 : Hyp0 dat0) (h1 : Hyp1 dat1)
  (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : Vals F := fun c b => W1 m ρ c b
def W2 (c : Dev nD) : Valuation τ sig (Elt F) :=
  Pipeline.withArrays spec0 c (W1 m ρ c) fun w => (dat0 (V1 m ρ) c).arrAt w cfg0.N
abbrev V2 : Vals F := fun c b => W2 dat0 m ρ c b
def W3 (c : Dev nD) : Valuation τ sig (Elt F) :=
  Pipeline.withArrays spec1 c (W2 dat0 m ρ c) fun w => (dat1 (V2 dat0 m ρ) c).arrAt w cfg1.N

theorem V2_main_v6_0 (c : Dev nD) : V2 dat0 m ρ c main_v6_0 = (dat0 (V1 m ρ) c).arrAt 10 cfg0.N :=
  Pipeline.withArrays_arr spec0 launch0.win.arr_inj c _ _ 10
theorem V2_main_v6_1 (c : Dev nD) : V2 dat0 m ρ c main_v6_1 = (dat0 (V1 m ρ) c).arrAt 11 cfg0.N :=
  Pipeline.withArrays_arr spec0 launch0.win.arr_inj c _ _ 11

abbrev reshaped : List (Ref sig .tc) := [main_v0, main_v1, main_v2, main_v3, main_v4, main_v5]
theorem hostOps0_writes : (hostOps0 : List (HloOp τ sig (Elt F))).Forall fun op => op.writes ⊆ (reshaped.map (Proc.devRef (τ := τ) .tc)).toFinset := by
  simp only [List.Forall, StableHlo.reshape_writes, Finset.singleton_subset_iff, List.mem_toFinset]
  refine ⟨?_, ?_, ?_, ?_, ?_, ?_⟩ <;> exact List.mem_map_of_mem (by decide)

/-- A buffer that no reshape writes and that neither region has as an output's array. -/
abbrev Kept (r : Ref sig .tc) : Prop :=
  ¬ (Proc.devRef .tc r : DevRef τ sig).isScoped ∧ r ∉ reshaped ∧ (∀ w, Pipeline.arrRef spec1 w ≠ r) ∧ ∀ w, Pipeline.arrRef spec0 w = r → (cfg0.win w).isOut = false

include h0 in
theorem W3_kept (c : Dev nD) (r : Ref sig .tc) (hr : Kept r) : W3 dat0 dat1 m ρ c (Proc.devRef .tc r) = m ((c : Thread nD τ).loc r) := by
  obtain ⟨-, hr, h1, hi⟩ := hr
  unfold W3 W2
  refine (Pipeline.withArrays_of_ne spec1 c _ _ r h1).trans (Eq.trans ?_ (StableHlo.after_of_writes_sub hostOps0 (W0 m ρ c) hostOps0_writes hr))
  by_cases h : ∃ w, Pipeline.arrRef spec0 w = r
  · obtain ⟨w, rfl⟩ := h
    exact (Pipeline.withArrays_arr spec0 launch0.win.arr_inj c _ _ w).trans (((dat0 (V1 m ρ) c).arrAt_in w (hi w rfl) _).trans (h0.hA (V1 m ρ) c w))
  · exact Pipeline.withArrays_of_ne spec0 c _ _ r fun w e => h ⟨w, e⟩

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 dat0 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ Owes0 c)
abbrev heldR (c : Dev nD) (W : Valuation τ sig (Elt F)) : sProp 𝕄 := iprop(StableHlo.held (c : Thread nD τ) (Pipeline.ucRefs τ sig) W ∗ R c)

/-- Either kernel region as a segment of the run: the buffers go from `V` to `V` updated at the region's arrays. -/
def reg (pd : (p : Fin 2) → (c : Dev nD) → Dat τ (Elt F) Unit ℕ (UR sig nD τ) ℕ (Pipeline.pin (pcfgs (F := F)) adm p) c)
    (p : Fin 2) (lf : Pipeline.LaunchFacts (nD := nD) (τ := τ) cfgs p) (V : Dev nD → Valuation τ sig (Elt F))
    (hA : ∀ c w, (pd p c).A w = V c (Pipeline.arrRef (cfgs p).spec w))
    (hq : ∀ c w, (pd p c).q w = fullShare)
    (how : ∀ c t, (pd p c).owed t = 0)
    (hrec : ∀ c, (pd p c).recorded 0 = Set.univ)
    (hbody : ∀ c, BodyObligation (pd p c) (defs₀ (F := F)) Variants.none () Set.univ)
    (hin : ∀ c, (Pipeline.ΦA (cfgs p).spec c : sProp 𝕄) ⊢ (pd p c).Φ 0)
    (hout : ∀ c, (pd p c).Φ (Fin.last (cfgs p).N) ⊢ (Pipeline.ΦA (cfgs p).spec c : sProp 𝕄)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p how
  pre c := heldR c (V c)
  post c := heldR c (Pipeline.withArrays (cfgs p).spec c (V c) fun w => (pd p c).arrAt w (cfgs p).N)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    have hO := owesAt_in (pd p c) (how c 0) (hrec c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c pd ((pd p c).share_full (hq c)) (fun b => V c b)
      (fun b => Pipeline.withArrays (cfgs p).spec c (V c) (fun w => (pd p c).arrAt w (cfgs p).N) b)
      ((pd p c).arrAt · (cfgs p).N) (fun w => (Pipeline.withArrays_arr _ lf.win.arr_inj c (V c) ((pd p c).arrAt · (cfgs p).N) w).symm)
      fun b hb => Pipeline.withArrays_of_ne _ c (V c) ((pd p c).arrAt · (cfgs p).N) b fun w e => hb (Finset.mem_image.mpr ⟨w, Finset.mem_univ _, e⟩)
    rw [Pipeline.unscopedBufs_held] at hjoin
    have hO := owesAt_out (pd p c) (Fin.last _) (how c _)
    iintro ⟨Ha, HO, HY, Hrest⟩
    imodintro
    isplitl [Ha Hrest]
    · iapply hjoin; isplitl [Ha] <;> iassumption
    isplitl [HY]; · iexact HY
    iapply hO; iexact HO

include h0 h1

abbrev segs : List (Pipeline.Seg (pcfgs (F := F)) adm (pdats dat0 dat1 m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp (by simp only [List.Forall]; repeat' constructor : (hostOps0 : List (HloOp τ sig (Elt F))).Forall fun op => op.fresh = ∅)) op h) (W0 m ρ) R),
    .region (reg (pdats dat0 dat1 m ρ) 0 launch0 (W1 m ρ) (h0.hA _) (h0.hq _) (h0.how _) (h0.hrec _) (h0.hbody _) (h0.hin _) (h0.hout _)),
    .region (reg (pdats dat0 dat1 m ρ) 1 launch1 (W2 dat0 m ρ) (h1.hA _) (h1.hq _) (h1.how _) (h1.hrec _) (h1.hbody _) (h1.hin _) (h1.hout _)) ]

/-- Every fair run ends; the result buffer then holds the second region's output array, each argument its launch contents. -/
theorem value_all : θ_run defs (onTc (τ := τ) (main (F := F))) ⟨m, fun _ => 0, ρ⟩ (fun r => ∀ c : Dev nD,
      r.2.mem ((c.tc : Thread nD τ).loc main_v7) = (dat1 (V2 dat0 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats dat0 dat1 m ρ) () cellOf_inj emb₁ defs₀ 𝒱₀ L lv m ρ main
    (segs dat0 dat1 h0 h1 m ρ)
    (fun c Q => by rw [show main (F := F) c = Pipeline.Seg.run (segs dat0 dat1 h0 h1 m ρ) from (main_chain c).trans (by chain_rfl)])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => heldR c (W0 m ρ c))
    (Tₙ := fun c => iprop(StableHlo.held (c : Thread nD τ) (Pipeline.ucRefs τ sig) (W3 dat0 dat1 m ρ c) ∗ ∃ r, prngReg c r))
    (hch := ⟨fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 dat0 dat1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 dat0 dat1 m ρ c) s')
      isplitl [Hh] <;> iassumption)
    (hQ := fun s h c =>
      have rd (r : Ref sig .tc) (hr : ¬ (Proc.devRef .tc r : DevRef τ sig).isScoped) := h c _ (Finset.mem_filter.mpr ⟨StableHlo.devRef_mem_tcRefs r, hr⟩)
      have kept (r : Ref sig .tc) (hr : Kept r) := (rd r hr.1).trans (W3_kept dat0 dat1 h0 m ρ c r hr)
      ⟨(rd main_v7 (by decide)).trans (Pipeline.withArrays_arr spec1 launch1.win.arr_inj c _ _ 2),
        kept main_arg0 (by decide), kept main_arg1 (by decide), kept main_arg2 (by decide), kept main_arg3 (by decide), kept main_arg4 (by decide),
        kept main_arg5 (by decide), kept main_arg6 (by decide), kept main_arg7 (by decide), kept main_arg8 (by decide), kept main_arg9 (by decide)⟩)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (value_all dat0 dat1 h0 h1 m ρ)

end Cert.KernelIdeal.Hand

end
-- ==== Proof.Reg1.lean ====
import proofs.«134973_g77017353552286_cont_9to1c4b_820_20_alg».proof.Proof.Gen.KernelIdeal.Launch
import proofs.«134973_g77017353552286_cont_9to1c4b_820_20_alg».proof.Proof.Gen.KernelIdeal.Skeleton
import proofs.«134973_g77017353552286_cont_9to1c4b_820_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0

abbrev r1_1 : Rect S2x256 := Rect.unit (s := S2x256) ![0, 0] S1x256.size inb_S2x256_S1x256_0_0

abbrev r1_2 : Rect S2x256 := Rect.unit (s := S2x256) ![1, 0] S1x256.size inb_S2x256_S1x256_1_0

noncomputable def out1_2 (x0 : Vec F S2000x256 .bf16) (x1 : Vec F S2x256 .f32) : Vec F S2000x256 .f32 :=
  View.canon [⟨r1_0, k1_pay1 (View.ld x0 r1_0) (View.ld x1 r1_1) (View.ld x1 r1_2)⟩]

theorem cover1_2 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

set_option maxHeartbeats 1000000 in

theorem sound_kernel1 (c : Dev nD) (E : Set ℕ) (i : grid1.Coords) (arg1 : Memref sig .tc .vmem S2000x256 .bf16) (harg1 : arg1.IsWhole) (arg2 : Memref sig .tc .vmem S2x256 .f32) (harg2 : arg2.IsWhole) (arg3 : Memref sig .tc .vmem S2000x256 .f32) (harg3 : arg3.IsWhole)
    (x0 : Vec F S2000x256 .bf16) (x1 : Vec F S2x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__tanh_kern i arg1 harg1 arg2 harg2 arg3 harg3) K := by
  simp only [cc1__tanh_kern_eq_skeleton]; unfold cc1__tanh_kern_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg0.lean ====
import proofs.«134973_g77017353552286_cont_9to1c4b_820_20_alg».proof.Proof.SbA
import proofs.«134973_g77017353552286_cont_9to1c4b_820_20_alg».proof.Proof.SbB
import proofs.«134973_g77017353552286_cont_9to1c4b_820_20_alg».proof.Proof.SbC
import proofs.«134973_g77017353552286_cont_9to1c4b_820_20_alg».proof.Proof.SbD
import proofs.«134973_g77017353552286_cont_9to1c4b_820_20_alg».proof.Proof.SbE
import proofs.«134973_g77017353552286_cont_9to1c4b_820_20_alg».proof.Proof.Run
import proofs.«134973_g77017353552286_cont_9to1c4b_820_20_alg».proof.Proof.Reg1
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The fifty blocks stored in the first phase tile the hidden layer: block i is rows 200·i … 200·i + 199.
theorem cover49 (c : Dev nD) : ∀ y : S10000x256.Idx, ∃ pc ∈ (ph0 V c 49 (by decide)).2.2, y ∈ pc.1.set :=
  View.cover_of_tiledL (s := S10000x256) _ ![200, 256] (by sl_kernel_rfl)

theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  have hN : t.val < 100 := lt_of_lt_of_eq t.isLt N0'
  by_cases hA : t.val = 0
  · exact sound_A V c t hA
  by_cases hB : t.val < 50
  · exact sound_B V c t hA hB
  by_cases hC : t.val = 50
  · exact sound_C V c t hC (cover49 V c)
  by_cases hE : t.val = 99
  · exact sound_E V c t hE
  exact sound_D V c t (by omega) (by omega)

theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

-- After the last point the scratch buffers' contents are forgotten.
theorem hout0 (c : Dev nD) : (dat0 V c).Φ (Fin.last cfg0.N) ⊢ (Pipeline.ΦA spec0 c : sProp 𝕄) := by
  rw [show (dat0 V c).Φ (Fin.last cfg0.N) = PhiS V c (99 + 1) (by rw [N0']) from rfl,
    PhiS_hi V c 99 _ (by decide) (by decide), PhiA0_eq]
  iintro ⟨⟨H0, H1, H2, HR⟩, Hg⟩
  isplitl [H0 H1 H2 HR]
  · isplitl [H0]; · iexists _; iexact H0
    isplitl [H1]; · iexists _; iexact H1
    isplitl [H2]; · iexists _; iexact H2
    iexact HR
  iexact Hg

theorem hyp0 : Hyp0 (F := F) (fun V c => dat0 V c) :=
  ⟨fun V c w => A_eq0 V c w, fun _ _ _ => rfl, fun _ _ _ => rfl, fun _ _ => rfl,
    fun V c => body_obligation0 V c, fun V c => hin0 V c, fun V c => hout0 V c⟩

theorem hyp1 : Hyp1 (F := F) (fun V c => dat1 V c) :=
  ⟨fun V c w => A_eq1 V c w, fun _ _ _ => rfl, fun _ _ _ => rfl, fun _ _ => rfl,
    fun V c => body_obligation1 V c, fun _ _ => .rfl, fun _ _ => .rfl⟩

end Cert.KernelIdeal.Hand

end
-- ==== Proof.Bits.Runs.lean ====
import proofs.«134973_g77017353552286_cont_9to1c4b_820_20_alg».proof.Proof.Gen.Kernel.Skeleton
import Idealize.ShloMosaic.Lib.Pipeline.Frame
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

local notation "𝕄" => MT nD τ sig Unit (Elt F) ℕ (UR sig nD τ) ℕ

abbrev q1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev q2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev q3 (i : grid0.Coords) : Prop := k0_cond3 i = 1#1
abbrev q4 (i : grid0.Coords) : Prop := k0_cond4 i = 1#1
abbrev q5 (i : grid0.Coords) : Prop := (Scalar.cmpi .ne (Scalar.extui (Scalar.cmpi .eq (BitVec.ofNat 32 (i 1).val) 0#32)) 0#32) = 1#1
abbrev q6 (i : grid0.Coords) : Prop := (Scalar.cmpi .ne (Scalar.extui (Scalar.cmpi .sgt (BitVec.ofNat 32 (i 1).val) 0#32)) 0#32) = 1#1
abbrev q7 (i : grid0.Coords) : Prop := k0_cond7 i = 1#1

-- A whole memref's raw contents are determined by what it reads, so owning it at `X` is holding it at `h.unread X`.
theorem owns_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  unfold owns
  refine BI.equiv_iff.mp ⟨?_, ?_⟩
  · show (_ : sProp 𝕄) ⊢ _
    iintro ⟨%f, %hf, H⟩
    obtain rfl := h.eq_unread hf
    iexact H
  · show (_ : sProp 𝕄) ⊢ _
    iintro H
    iexists _
    isplitr
    · ipureintro; exact h.read_unread _
    iexact H

variable (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S200x256 .bf16) (harg12 : arg12.IsWhole) (arg13 : Memref sig .tc .vmem S2x256 .f32) (harg13 : arg13.IsWhole) (arg14 : Memref sig .tc .vmem S10000x256 .f32) (harg14 : arg14.IsWhole) (arg15 : Memref sig .tc .vmem S10000x256 .bf16) (harg15 : arg15.IsWhole) (arg16 : Memref sig .tc .vmem S2x256 .f32) (harg16 : arg16.IsWhole)

def kernelRun0_A (h1 : q1 i) (h2 : ¬q2 i) (h3 : q3 i) (h4 : ¬q4 i) (h5 : q5 i) (h6 : ¬q6 i) (h7 : ¬q7 i)
    (x0 : Vec F S200x10000 .f32) (x1 : Vec F S10000x256 .f32) (x2 x3 : Vec F S256x256 .f32) (x4 x5 x6 x7 x8 x9 : Vec F S1x256 .f32)  :
    Σ' (LS14 : List (View.Piece (Elt F) S10000x256 .f32)), Σ' (LS15 : List (View.Piece (Elt F) S10000x256 .bf16)), { LS16 : List (View.Piece (Elt F) S2x256 .f32) //
      ∀ (xi12 : Vec F S200x256 .bf16) (xi13 : Vec F S2x256 .f32) (g15 : arg15.view.ty.Contents (Elt F)) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ (∃ d, owns c arg14 fullShare d) ∗ (arg15.view.loc c ↦[arg15.view.set]{fullShare} g15) ∗ (∃ d, owns c arg16 fullShare d)
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ (∃ f, arg14.view.loc c ↦[arg14.view.set]{fullShare} arg14.view.writes (Elt F) f LS14) ∗ (arg15.view.loc c ↦[arg15.view.set]{fullShare} arg15.view.writes (Elt F) g15 LS15) ∗ (∃ f, arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi12 xi13 g15 E K => ?run⟩
  case run =>
    simp (disch := assumption) only [owns_unread, cc0__gcn_kern_eq_skeleton]
    unfold cc0__gcn_kern_skel
    iintro ⟨H0, H1, H2, H3, H4, H5, H6, H7, H8, H9, H12, H13, ⟨%d14, H14⟩, H15, ⟨%d16, H16⟩, Hk⟩
    sl_exec (disch := assumption)
    sl_step
    iapply Hk
    iframe
    isplitl [H14]
    · iexists _; iexact H14
    iexists _; iexact H16

def kernelRun0_B (h1 : ¬q1 i) (h2 : ¬q2 i) (h3 : q3 i) (h4 : ¬q4 i) (h5 : ¬q5 i) (h6 : q6 i) (h7 : ¬q7 i)
    (x0 : Vec F S200x10000 .f32) (x1 : Vec F S10000x256 .f32) (x2 x3 : Vec F S256x256 .f32) (x4 x5 x6 x7 x8 x9 : Vec F S1x256 .f32) (xs14 : Vec F S10000x256 .f32) (xs16 : Vec F S2x256 .f32) :
    Σ' (LS15 : List (View.Piece (Elt F) S10000x256 .bf16)), { LS16 : List (View.Piece (Elt F) S2x256 .f32) //
      ∀ (xi12 : Vec F S200x256 .bf16) (xi13 : Vec F S2x256 .f32) (g15 : arg15.view.ty.Contents (Elt F)) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ owns c arg14 fullShare xs14 ∗ (arg15.view.loc c ↦[arg15.view.set]{fullShare} g15) ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare xi12 ∗ owns c arg13 fullShare xi13 ∗ owns c arg14 fullShare xs14 ∗ (arg15.view.loc c ↦[arg15.view.set]{fullShare} arg15.view.writes (Elt F) g15 LS15) ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi12 xi13 g15 E K => ?run⟩
  case run =>
    simp (disch := assumption) only [owns_unread, cc0__gcn_kern_eq_skeleton]
    unfold cc0__gcn_kern_skel
    iintro ⟨H0, H1, H2, H3, H4, H5, H6, H7, H8, H9, H12, H13, H14, H15, H16, Hk⟩
    sl_exec (disch := assumption)
    sl_step
    iapply Hk
    iframe
    iexists _; isplitr; · ipureintro; exact harg16.read_unread _
    iexact H16

def kernelRun0_C (h1 : ¬q1 i) (h2 : q2 i) (h3 : ¬q3 i) (h4 : q4 i) (h5 : q5 i) (h6 : ¬q6 i) (h7 : ¬q7 i)
    (x0 : Vec F S200x10000 .f32) (x1 : Vec F S10000x256 .f32) (x2 x3 : Vec F S256x256 .f32) (x4 x5 x6 x7 x8 x9 : Vec F S1x256 .f32) (xs15 : Vec F S10000x256 .bf16) (xs16 : Vec F S2x256 .f32) :
    Σ' (L12 : List (View.Piece (Elt F) S200x256 .bf16)), Σ' (LS14 : List (View.Piece (Elt F) S10000x256 .f32)), { LS16 : List (View.Piece (Elt F) S2x256 .f32) //
      ∀ (xi13 : Vec F S2x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ d, owns c arg12 fullShare d) ∗ owns c arg13 fullShare xi13 ∗ (∃ d, owns c arg14 fullShare d) ∗ owns c arg15 fullShare xs15 ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ f, arg12.view.loc c ↦[arg12.view.set]{fullShare} arg12.view.writes (Elt F) f L12) ∗ owns c arg13 fullShare xi13 ∗ (∃ f, arg14.view.loc c ↦[arg14.view.set]{fullShare} arg14.view.writes (Elt F) f LS14) ∗ owns c arg15 fullShare xs15 ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi13 E K => ?run⟩
  case run =>
    simp (disch := assumption) only [owns_unread, cc0__gcn_kern_eq_skeleton]
    unfold cc0__gcn_kern_skel
    iintro ⟨H0, H1, H2, H3, H4, H5, H6, H7, H8, H9, ⟨%d12, H12⟩, H13, ⟨%d14, H14⟩, H15, H16, Hk⟩
    sl_exec (disch := assumption)
    sl_step
    iapply Hk
    iframe
    isplitl [H12]
    · iexists _; iexact H12
    isplitl [H14]
    · iexists _; iexact H14
    iexists _; isplitr; · ipureintro; exact harg16.read_unread _
    iexact H16

def kernelRun0_D (h1 : ¬q1 i) (h2 : ¬q2 i) (h3 : ¬q3 i) (h4 : q4 i) (h5 : ¬q5 i) (h6 : q6 i) (h7 : ¬q7 i)
    (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32) :
    Σ' (L12 : List (View.Piece (Elt F) S200x256 .bf16)), { LS16 : List (View.Piece (Elt F) S2x256 .f32) //
      ∀ (xi13 : Vec F S2x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ d, owns c arg12 fullShare d) ∗ owns c arg13 fullShare xi13 ∗ owns c arg14 fullShare xs14 ∗ owns c arg15 fullShare xs15 ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ f, arg12.view.loc c ↦[arg12.view.set]{fullShare} arg12.view.writes (Elt F) f L12) ∗ owns c arg13 fullShare xi13 ∗ owns c arg14 fullShare xs14 ∗ owns c arg15 fullShare xs15 ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi13 E K => ?run⟩
  case run =>
    simp (disch := assumption) only [owns_unread, cc0__gcn_kern_eq_skeleton]
    unfold cc0__gcn_kern_skel
    iintro ⟨H0, H1, H2, H3, H4, H5, H6, H7, H8, H9, ⟨%d12, H12⟩, H13, H14, H15, H16, Hk⟩
    sl_exec (disch := assumption)
    sl_step
    iapply Hk
    iframe
    isplitl [H12]
    · iexists _; iexact H12
    iexists _; isplitr; · ipureintro; exact harg16.read_unread _
    iexact H16

def kernelRun0_E (h1 : ¬q1 i) (h2 : ¬q2 i) (h3 : ¬q3 i) (h4 : q4 i) (h5 : ¬q5 i) (h6 : q6 i) (h7 : q7 i)
    (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32) :
    Σ' (L12 : List (View.Piece (Elt F) S200x256 .bf16)), Σ' (L13 : List (View.Piece (Elt F) S2x256 .f32)), { LS16 : List (View.Piece (Elt F) S2x256 .f32) //
      ∀  (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ d, owns c arg12 fullShare d) ∗ (∃ d, owns c arg13 fullShare d) ∗ owns c arg14 fullShare xs14 ∗ owns c arg15 fullShare xs15 ∗ owns c arg16 fullShare xs16
            ∗ ((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ (∃ f, arg12.view.loc c ↦[arg12.view.set]{fullShare} arg12.view.writes (Elt F) f L12) ∗ (∃ f, arg13.view.loc c ↦[arg13.view.set]{fullShare} arg13.view.writes (Elt F) f L13) ∗ owns c arg14 fullShare xs14 ∗ owns c arg15 fullShare xs15 ∗ (∃ f, ⌜arg16.view.read (Elt F) f = xs16⌝ ∗ arg16.view.loc c ↦[arg16.view.set]{fullShare} arg16.view.writes (Elt F) f LS16)) -∗ K ⟨⟩))
          ⊢ wp frame (wpE defs₀ Variants.none c none) E (cc0__gcn_kern i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun  E K => ?run⟩
  case run =>
    simp (disch := assumption) only [owns_unread, cc0__gcn_kern_eq_skeleton]
    unfold cc0__gcn_kern_skel
    iintro ⟨H0, H1, H2, H3, H4, H5, H6, H7, H8, H9, ⟨%d12, H12⟩, ⟨%d13, H13⟩, H14, H15, H16, Hk⟩
    sl_exec (disch := assumption)
    sl_step
    iapply Hk
    iframe
    isplitl [H12]
    · iexists _; iexact H12
    isplitl [H13]
    · iexists _; iexact H13
    iexists _; isplitr; · ipureintro; exact harg16.read_unread _
    iexact H16

end Cert.Kernel.Hand

end
-- ==== Proof.Bits.StateFns.lean ====
import proofs.«134973_g77017353552286_cont_9to1c4b_820_20_alg».proof.Proof.Bits.Runs
import Idealize.ShloMosaic.Lib.Ring
set_option maxRecDepth 16384

noncomputable section

namespace Cert.Kernel.Hand

open Idealize.ShloMosaic

variable {F : FTy → Type} [FloatOps F]

abbrev scM0 : Memref sig .tc .vmem S10000x256 .f32 := Memref.whole cc0_scratch0
abbrev scM1 : Memref sig .tc .vmem S10000x256 .bf16 := Memref.whole cc0_scratch1
abbrev scM2 : Memref sig .tc .vmem S2x256 .f32 := Memref.whole cc0_scratch2
abbrev hsc0 : scM0.IsWhole := Memref.isWhole_whole _
abbrev hsc1 : scM1.IsWhole := Memref.isWhole_whole _
abbrev hsc2 : scM2.IsWhole := Memref.isWhole_whole _
abbrev VS0 : View sig .tc .vmem S10000x256 .f32 := scM0.view
abbrev VS1 : View sig .tc .vmem S10000x256 .bf16 := scM1.view
abbrev VS2 : View sig .tc .vmem S2x256 .f32 := scM2.view
abbrev VO10 : View sig .tc .vmem S200x256 .bf16 := (Memref.whole cc0_stg10_0 : Memref sig .tc .vmem S200x256 .bf16).view
abbrev VO11 : View sig .tc .vmem S2x256 .f32 := (Memref.whole cc0_stg11_0 : Memref sig .tc .vmem S2x256 .f32).view

variable (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S200x256 .bf16) (harg12 : arg12.IsWhole) (arg13 : Memref sig .tc .vmem S2x256 .f32) (harg13 : arg13.IsWhole)

section A
variable (h1 : q1 i) (h2 : ¬q2 i) (h3 : q3 i) (h4 : ¬q4 i) (h5 : q5 i) (h6 : ¬q6 i) (h7 : ¬q7 i) (x0 : Vec F S200x10000 .f32) (x1 : Vec F S10000x256 .f32) (x2 x3 : Vec F S256x256 .f32) (x4 x5 x6 x7 x8 x9 : Vec F S1x256 .f32)

def supp_A : Vec F S10000x256 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).1)
theorem scover14_A (y : S10000x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).1, y ∈ pc.1.set :=
  View.cover_of_tiledL (s := S10000x256) _ ![2000, 256] (by sl_kernel_rfl) y
def slab_A : List (View.Piece (Elt F) S10000x256 .bf16) :=
  (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).2.1
def st_A : Vec F S2x256 .f32 :=
  VS2.read (Elt F) (VS2.writes (Elt F) VS2.junk (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).2.2.1)
theorem scover16_A (y : S2x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9).2.2.1, y ∈ pc.1.set :=
  View.cover_of_tiledL (s := S2x256) _ ![1, 256] (by sl_kernel_rfl) y

end A

section B
variable (h1 : ¬q1 i) (h2 : ¬q2 i) (h3 : q3 i) (h4 : ¬q4 i) (h5 : ¬q5 i) (h6 : q6 i) (h7 : ¬q7 i) (x0 : Vec F S200x10000 .f32) (x1 : Vec F S10000x256 .f32) (x2 x3 : Vec F S256x256 .f32) (x4 x5 x6 x7 x8 x9 : Vec F S1x256 .f32) (xs14 : Vec F S10000x256 .f32) (xs16 : Vec F S2x256 .f32)

def slab_B : List (View.Piece (Elt F) S10000x256 .bf16) :=
  (kernelRun0_B c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs16).1
def st_B : Vec F S2x256 .f32 :=
  VS2.read (Elt F) (VS2.writes (Elt F) (hsc2.unread xs16) (kernelRun0_B c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs16).2.1)

end B

section C
variable (h1 : ¬q1 i) (h2 : q2 i) (h3 : ¬q3 i) (h4 : q4 i) (h5 : q5 i) (h6 : ¬q6 i) (h7 : ¬q7 i) (x0 : Vec F S200x10000 .f32) (x1 : Vec F S10000x256 .f32) (x2 x3 : Vec F S256x256 .f32) (x4 x5 x6 x7 x8 x9 : Vec F S1x256 .f32) (xs15 : Vec F S10000x256 .bf16) (xs16 : Vec F S2x256 .f32)

def out10_C : Vec F S200x256 .bf16 :=
  VO10.read (Elt F) (VO10.writes (Elt F) VO10.junk (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).1)
theorem cover12_C (y : S200x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).1, y ∈ pc.1.set :=
  View.cover_of_tiledL _ S200x256.size (by sl_kernel_rfl) y
def supp_C : Vec F S10000x256 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).2.1)
theorem scover14_C (y : S10000x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).2.1, y ∈ pc.1.set :=
  View.cover_of_tiledL (s := S10000x256) _ ![2000, 256] (by sl_kernel_rfl) y
def st_C : Vec F S2x256 .f32 :=
  VS2.read (Elt F) (VS2.writes (Elt F) (hsc2.unread xs16) (kernelRun0_C c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs15 xs16).2.2.1)

end C

section D
variable (h1 : ¬q1 i) (h2 : ¬q2 i) (h3 : ¬q3 i) (h4 : q4 i) (h5 : ¬q5 i) (h6 : q6 i) (h7 : ¬q7 i) (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32)

def out10_D : Vec F S200x256 .bf16 :=
  VO10.read (Elt F) (VO10.writes (Elt F) VO10.junk (kernelRun0_D c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1)
theorem cover12_D (y : S200x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1, y ∈ pc.1.set :=
  View.cover_of_tiledL _ S200x256.size (by sl_kernel_rfl) y
def st_D : Vec F S2x256 .f32 :=
  VS2.read (Elt F) (VS2.writes (Elt F) (hsc2.unread xs16) (kernelRun0_D c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.1)

end D

section E
variable (h1 : ¬q1 i) (h2 : ¬q2 i) (h3 : ¬q3 i) (h4 : q4 i) (h5 : ¬q5 i) (h6 : q6 i) (h7 : q7 i) (x0 : Vec F S200x10000 .f32) (x1 : Vec F S10000x256 .f32) (x2 x3 : Vec F S256x256 .f32) (x4 x5 x6 x7 x8 x9 : Vec F S1x256 .f32) (xs14 : Vec F S10000x256 .f32) (xs15 : Vec F S10000x256 .bf16) (xs16 : Vec F S2x256 .f32)

def out10_E : Vec F S200x256 .bf16 :=
  VO10.read (Elt F) (VO10.writes (Elt F) VO10.junk (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1)
theorem cover12_E (y : S200x256.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).1, y ∈ pc.1.set :=
  View.cover_of_tiledL _ S200x256.size (by sl_kernel_rfl) y
def out11_E : Vec F S2x256 .f32 :=
  VO11.read (Elt F) (VO11.writes (Elt F) VO11.junk (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.1)
theorem cover13_E (y : S2x256.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.1, y ∈ pc.1.set :=
  View.cover_of_tiledL (s := S2x256) _ ![1, 256] (by sl_kernel_rfl) y
def st_E : Vec F S2x256 .f32 :=
  VS2.read (Elt F) (VS2.writes (Elt F) (hsc2.unread xs16) (kernelRun0_E c i arg2 harg2 arg3 harg3 arg4 harg4 arg5 harg5 arg6 harg6 arg7 harg7 arg8 harg8 arg9 harg9 arg10 harg10 arg11 harg11 arg12 harg12 arg13 harg13 scM0 hsc0 scM1 hsc1 scM2 hsc2 h1 h2 h3 h4 h5 h6 h7 x0 x1 x2 x3 x4 x5 x6 x7 x8 x9 xs14 xs15 xs16).2.2.1)

end E

end Cert.Kernel.Hand

end
-- ==== Proof.Bits.Sched0.lean ====
import proofs.«134973_g77017353552286_cont_9to1c4b_820_20_alg».proof.Proof.Bits.StateFns
import proofs.«134973_g77017353552286_cont_9to1c4b_820_20_alg».proof.Proof.Gen.Kernel.Launch
import Idealize.ShloMosaic.Lib.Pipeline.FrameBody
set_option maxRecDepth 16384

noncomputable section

namespace Cert.Kernel.Hand

open Idealize.ShloMosaic Idealize.ShloMosaic.TcCoe Cert.Kernel.Gen Idealize.SL Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable {c : Dev nD} (dat : Dat τ (Elt F) Unit ℕ (UR sig nD τ) ℕ cfg0 c)

-- At a numeral `w` the right side is `iblk0 V c w t` by unfolding.
theorem before0_of (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V c (Pipeline.arrRef spec0 w))
    (hafter : ∀ t, (cfg0.win w).cut (cfg0.grid.coords t) (dat.after w t) = iblk0 V c w t) (t : Fin cfg0.N) (d) :
    dat.before w t d = (cfg0.win w).fill (cfg0.grid.coords t) d (iblk0 V c w t) := by
  rw [dat.before_in_eq_fetched w hw hlive hclip (fun t => by rw [hafter]; unfold Dat.blockOf iblk0; rw [hA]) t d]
  unfold Dat.fetched Dat.blockOf iblk0; rw [hA]

end Region0

theorem hq1 : ∀ t : Fin cfg0.N, q1 (grid0.coords t) ↔ t.val = 0 := by decide +kernel
theorem hq2 : ∀ t : Fin cfg0.N, q2 (grid0.coords t) ↔ t.val = 50 := by decide +kernel
theorem hq3 : ∀ t : Fin cfg0.N, q3 (grid0.coords t) ↔ t.val < 50 := by decide +kernel
theorem hq4 : ∀ t : Fin cfg0.N, q4 (grid0.coords t) ↔ 50 ≤ t.val := by decide +kernel
theorem hq5 : ∀ t : Fin cfg0.N, q5 (grid0.coords t) ↔ t.val % 50 = 0 := by decide +kernel
theorem hq6 : ∀ t : Fin cfg0.N, q6 (grid0.coords t) ↔ ¬ t.val % 50 = 0 := by decide +kernel
theorem hq7 : ∀ t : Fin cfg0.N, q7 (grid0.coords t) ↔ t.val = 99 := by decide +kernel

theorem off1_eq : ∀ t : Fin cfg0.N, t.val < 50 → k0_off1 (grid0.coords t) = ![200 * t.val, 0] := by decide +kernel

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl

theorem idle10 : ∀ t : Fin cfg0.N, ¬q4 (grid0.coords t) → cfg0.idle 10 (grid0.coords t) = true := by decide +kernel
theorem live10 : ∀ t : Fin cfg0.N, q4 (grid0.coords t) → cfg0.idle 10 (grid0.coords t) = false := by decide +kernel
theorem noFlush10 : ∀ t : Fin cfg0.N, ¬q4 (grid0.coords t) → (cfg0.win 10).flush t = false := by decide +kernel
theorem idle11 : ∀ t : Fin cfg0.N, ¬q7 (grid0.coords t) → cfg0.idle 11 (grid0.coords t) = true := by decide +kernel
theorem live11 : ∀ t : Fin cfg0.N, q7 (grid0.coords t) → cfg0.idle 11 (grid0.coords t) = false := by decide +kernel
theorem noFlush11 : ∀ t : Fin cfg0.N, ¬q7 (grid0.coords t) → (cfg0.win 11).flush t = false := by decide +kernel

section
variable (t : Fin cfg0.N)
abbrev ms0_0 : Memref sig .tc .vmem S200x10000 .f32 := win0_0.stage (cfg0.slots t 0)
abbrev hs0_0 : (ms0_0 t).IsWhole := stage_whole0 0 (cfg0.slots t 0)
abbrev ms0_1 : Memref sig .tc .vmem S10000x256 .f32 := win0_1.stage (cfg0.slots t 1)
abbrev hs0_1 : (ms0_1 t).IsWhole := stage_whole0 1 (cfg0.slots t 1)
abbrev ms0_2 : Memref sig .tc .vmem S256x256 .f32 := win0_2.stage (cfg0.slots t 2)
abbrev hs0_2 : (ms0_2 t).IsWhole := stage_whole0 2 (cfg0.slots t 2)
abbrev ms0_3 : Memref sig .tc .vmem S256x256 .f32 := win0_3.stage (cfg0.slots t 3)
abbrev hs0_3 : (ms0_3 t).IsWhole := stage_whole0 3 (cfg0.slots t 3)
abbrev ms0_4 : Memref sig .tc .vmem S1x256 .f32 := win0_4.stage (cfg0.slots t 4)
abbrev hs0_4 : (ms0_4 t).IsWhole := stage_whole0 4 (cfg0.slots t 4)
abbrev ms0_5 : Memref sig .tc .vmem S1x256 .f32 := win0_5.stage (cfg0.slots t 5)
abbrev hs0_5 : (ms0_5 t).IsWhole := stage_whole0 5 (cfg0.slots t 5)
abbrev ms0_6 : Memref sig .tc .vmem S1x256 .f32 := win0_6.stage (cfg0.slots t 6)
abbrev hs0_6 : (ms0_6 t).IsWhole := stage_whole0 6 (cfg0.slots t 6)
abbrev ms0_7 : Memref sig .tc .vmem S1x256 .f32 := win0_7.stage (cfg0.slots t 7)
abbrev hs0_7 : (ms0_7 t).IsWhole := stage_whole0 7 (cfg0.slots t 7)
abbrev ms0_8 : Memref sig .tc .vmem S1x256 .f32 := win0_8.stage (cfg0.slots t 8)
abbrev hs0_8 : (ms0_8 t).IsWhole := stage_whole0 8 (cfg0.slots t 8)
abbrev ms0_9 : Memref sig .tc .vmem S1x256 .f32 := win0_9.stage (cfg0.slots t 9)
abbrev hs0_9 : (ms0_9 t).IsWhole := stage_whole0 9 (cfg0.slots t 9)
abbrev ms0_10 : Memref sig .tc .vmem S200x256 .bf16 := win0_10.stage (cfg0.slots t 10)
abbrev hs0_10 : (ms0_10 t).IsWhole := stage_whole0 10 (cfg0.slots t 10)
abbrev ms0_11 : Memref sig .tc .vmem S2x256 .f32 := win0_11.stage (cfg0.slots t 11)
abbrev hs0_11 : (ms0_11 t).IsWhole := stage_whole0 11 (cfg0.slots t 11)
end

def Rest5 (c : Dev nD) : sProp 𝕄 :=
  bigSepL [cc1_stg0_0, cc1_stg0_1, cc1_stg1_0, cc1_stg2_0, cc1_stg2_1] fun b =>
    iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ Rest5 (F := F) c) ∗ (∃ r, prngReg c r)) := by
  unfold Pipeline.ΦA; rw [scopedRest0_eq]; simp only [scM0, scM1, scM2, owns_whole, Rest5]; rfl

end Cert.Kernel.Hand

end
-- ==== Proof.Bits.Reg0a.lean ====
import proofs.«134973_g77017353552286_cont_9to1c4b_820_20_alg».proof.Proof.Bits.Sched0
import proofs.«134973_g77017353552286_cont_9to1c4b_820_20_alg».proof.Proof.Gen.Kernel.Points
set_option maxRecDepth 16384

noncomputable section

namespace Cert.Kernel.Hand

open Idealize.ShloMosaic Idealize.ShloMosaic.TcCoe Idealize.SL Idealize.SL.RA Idealize.SL.BI Idealize.SL.BI.BIBase Idealize.SL.Sem Idealize.ShloMosaic.Pipeline Idealize.ShloMosaic.Rounds Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (t : Fin cfg0.N)

theorem N0' : cfg0.N = 100 := N_0
theorem lt_N {n : ℕ} (h : n < 100) : n < cfg0.N := by rw [N0']; exact h

abbrev pt (n : ℕ) (h : n < 100) : Fin cfg0.N := ⟨n, lt_N h⟩

theorem condsA (h : t.val = 0) : q1 (grid0.coords t) ∧ ¬q2 (grid0.coords t) ∧ q3 (grid0.coords t) ∧ ¬q4 (grid0.coords t) ∧ q5 (grid0.coords t) ∧ ¬q6 (grid0.coords t) ∧ ¬q7 (grid0.coords t) := by
  rw [hq1, hq2, hq3, hq4, hq5, hq6, hq7]; omega

theorem condsB (h0 : t.val ≠ 0) (h : t.val < 50) : ¬q1 (grid0.coords t) ∧ ¬q2 (grid0.coords t) ∧ q3 (grid0.coords t) ∧ ¬q4 (grid0.coords t) ∧ ¬q5 (grid0.coords t) ∧ q6 (grid0.coords t) ∧ ¬q7 (grid0.coords t) := by
  rw [hq1, hq2, hq3, hq4, hq5, hq6, hq7]; omega

theorem condsC (h : t.val = 50) : ¬q1 (grid0.coords t) ∧ q2 (grid0.coords t) ∧ ¬q3 (grid0.coords t) ∧ q4 (grid0.coords t) ∧ q5 (grid0.coords t) ∧ ¬q6 (grid0.coords t) ∧ ¬q7 (grid0.coords t) := by
  rw [hq1, hq2, hq3, hq4, hq5, hq6, hq7]; omega

theorem condsD (h : 50 < t.val) (h' : t.val < 99) : ¬q1 (grid0.coords t) ∧ ¬q2 (grid0.coords t) ∧ ¬q3 (grid0.coords t) ∧ q4 (grid0.coords t) ∧ ¬q5 (grid0.coords t) ∧ q6 (grid0.coords t) ∧ ¬q7 (grid0.coords t) := by
  rw [hq1, hq2, hq3, hq4, hq5, hq6, hq7]; omega

theorem condsE (h : t.val = 99) : ¬q1 (grid0.coords t) ∧ ¬q2 (grid0.coords t) ∧ ¬q3 (grid0.coords t) ∧ q4 (grid0.coords t) ∧ ¬q5 (grid0.coords t) ∧ q6 (grid0.coords t) ∧ q7 (grid0.coords t) := by
  rw [hq1, hq2, hq3, hq4, hq5, hq6, hq7]; omega

abbrev at0 {p1 p2 p3 p4 p5 p6 p7 : grid0.Coords → Prop} {γ : Type} (c : Dev nD) (t : Fin cfg0.N)
    (f : ∀ i (a2 : Memref sig .tc .vmem S200x10000 .f32), a2.IsWhole → ∀ a3 : Memref sig .tc .vmem S10000x256 .f32, a3.IsWhole →
      ∀ a4 : Memref sig .tc .vmem S256x256 .f32, a4.IsWhole → ∀ a5 : Memref sig .tc .vmem S256x256 .f32, a5.IsWhole →
      ∀ a6 : Memref sig .tc .vmem S1x256 .f32, a6.IsWhole → ∀ a7 : Memref sig .tc .vmem S1x256 .f32, a7.IsWhole →
      ∀ a8 : Memref sig .tc .vmem S1x256 .f32, a8.IsWhole → ∀ a9 : Memref sig .tc .vmem S1x256 .f32, a9.IsWhole →
      ∀ a10 : Memref sig .tc .vmem S1x256 .f32, a10.IsWhole → ∀ a11 : Memref sig .tc .vmem S1x256 .f32, a11.IsWhole →
      ∀ a12 : Memref sig .tc .vmem S200x256 .bf16, a12.IsWhole → ∀ a13 : Memref sig .tc .vmem S2x256 .f32, a13.IsWhole →
      p1 i → p2 i → p3 i → p4 i → p5 i → p6 i → p7 i →
      Vec F S200x10000 .f32 → Vec F S10000x256 .f32 → Vec F S256x256 .f32 → Vec F S256x256 .f32 → Vec F S1x256 .f32 →
      Vec F S1x256 .f32 → Vec F S1x256 .f32 → Vec F S1x256 .f32 → Vec F S1x256 .f32 → Vec F S1x256 .f32 → γ)
    (hc : p1 (grid0.coords t) ∧ p2 (grid0.coords t) ∧ p3 (grid0.coords t) ∧ p4 (grid0.coords t) ∧ p5 (grid0.coords t) ∧ p6 (grid0.coords t) ∧ p7 (grid0.coords t)) : γ :=
  f (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc.1 hc.2.1 hc.2.2.1 hc.2.2.2.1 hc.2.2.2.2.1 hc.2.2.2.2.2.1 hc.2.2.2.2.2.2 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

def suppA_at (h : t.val = 0) : Vec F S10000x256 .f32 :=
  at0 V c t (supp_A c) (condsA t h)

def slabA_at (h : t.val = 0) : List (View.Piece (Elt F) S10000x256 .bf16) :=
  at0 V c t (slab_A c) (condsA t h)

def stA_at (h : t.val = 0) : Vec F S2x256 .f32 :=
  at0 V c t (st_A c) (condsA t h)

def slabB_at (h0 : t.val ≠ 0) (h : t.val < 50) (xs14 : Vec F S10000x256 .f32) (xs16 : Vec F S2x256 .f32) : List (View.Piece (Elt F) S10000x256 .bf16) :=
  at0 V c t (slab_B c) (condsB t h0 h) xs14 xs16

def stB_at (h0 : t.val ≠ 0) (h : t.val < 50) (xs14 : Vec F S10000x256 .f32) (xs16 : Vec F S2x256 .f32) : Vec F S2x256 .f32 :=
  at0 V c t (st_B c) (condsB t h0 h) xs14 xs16

def out10C_at (h : t.val = 50) (xs15 : Vec F S10000x256 .bf16) (xs16 : Vec F S2x256 .f32) : Vec F S200x256 .bf16 :=
  at0 V c t (out10_C c) (condsC t h) xs15 xs16

def suppC_at (h : t.val = 50) (xs15 : Vec F S10000x256 .bf16) (xs16 : Vec F S2x256 .f32) : Vec F S10000x256 .f32 :=
  at0 V c t (supp_C c) (condsC t h) xs15 xs16

def stC_at (h : t.val = 50) (xs15 : Vec F S10000x256 .bf16) (xs16 : Vec F S2x256 .f32) : Vec F S2x256 .f32 :=
  at0 V c t (st_C c) (condsC t h) xs15 xs16

def out10D_at (h : 50 < t.val) (h' : t.val < 99) (xs14 : Vec F S10000x256 .f32) (xs15 : Vec F S10000x256 .bf16) (xs16 : Vec F S2x256 .f32) : Vec F S200x256 .bf16 :=
  at0 V c t (out10_D c) (condsD t h h') xs14 xs15 xs16

def stD_at (h : 50 < t.val) (h' : t.val < 99) (xs14 : Vec F S10000x256 .f32) (xs15 : Vec F S10000x256 .bf16) (xs16 : Vec F S2x256 .f32) : Vec F S2x256 .f32 :=
  at0 V c t (st_D c) (condsD t h h') xs14 xs15 xs16

def out10E_at (h : t.val = 99) (xs14 : Vec F S10000x256 .f32) (xs15 : Vec F S10000x256 .bf16) (xs16 : Vec F S2x256 .f32) : Vec F S200x256 .bf16 :=
  at0 V c t (out10_E c) (condsE t h) xs14 xs15 xs16

def out11E_at (h : t.val = 99) (xs14 : Vec F S10000x256 .f32) (xs15 : Vec F S10000x256 .bf16) (xs16 : Vec F S2x256 .f32) : Vec F S2x256 .f32 :=
  at0 V c t (out11_E c) (condsE t h) xs14 xs15 xs16

def stE_at (h : t.val = 99) (xs14 : Vec F S10000x256 .f32) (xs15 : Vec F S10000x256 .bf16) (xs16 : Vec F S2x256 .f32) : Vec F S2x256 .f32 :=
  at0 V c t (st_E c) (condsE t h) xs14 xs15 xs16

def ph0 : (n : ℕ) → n < 50 → Vec F S10000x256 .f32 × Vec F S2x256 .f32 × List (View.Piece (Elt F) S10000x256 .bf16)
  | 0, _ => (suppA_at V c (pt 0 (by decide)) rfl, stA_at V c (pt 0 (by decide)) rfl, slabA_at V c (pt 0 (by decide)) rfl)
  | n + 1, hn =>
    (( ph0 n (Nat.lt_of_succ_lt hn)).1,
     stB_at V c (pt (n + 1) (by omega)) (Nat.succ_ne_zero n) hn (ph0 n (Nat.lt_of_succ_lt hn)).1 (ph0 n (Nat.lt_of_succ_lt hn)).2.1,
     slabB_at V c (pt (n + 1) (by omega)) (Nat.succ_ne_zero n) hn (ph0 n (Nat.lt_of_succ_lt hn)).1 (ph0 n (Nat.lt_of_succ_lt hn)).2.1 ++ (ph0 n (Nat.lt_of_succ_lt hn)).2.2)

theorem ph0_zero (h : 0 < 50) :
    ph0 V c 0 h = (suppA_at V c (pt 0 (by decide)) rfl, stA_at V c (pt 0 (by decide)) rfl, slabA_at V c (pt 0 (by decide)) rfl) := rfl

theorem ph0_succ (n : ℕ) (hn : n + 1 < 50) :
    ph0 V c (n + 1) hn = ((ph0 V c n (Nat.lt_of_succ_lt hn)).1,
      stB_at V c (pt (n + 1) (by omega)) (Nat.succ_ne_zero n) hn (ph0 V c n (Nat.lt_of_succ_lt hn)).1 (ph0 V c n (Nat.lt_of_succ_lt hn)).2.1,
      slabB_at V c (pt (n + 1) (by omega)) (Nat.succ_ne_zero n) hn (ph0 V c n (Nat.lt_of_succ_lt hn)).1 (ph0 V c n (Nat.lt_of_succ_lt hn)).2.1 ++ (ph0 V c n (Nat.lt_of_succ_lt hn)).2.2) := rfl

def h1Full : Vec F S10000x256 .bf16 :=
  VS1.read (Elt F) (VS1.writes (Elt F) VS1.junk (ph0 V c 49 (by decide)).2.2)

def ph1 : (k : ℕ) → k < 50 → Vec F S200x256 .bf16 × Vec F S2x256 .f32 × Vec F S10000x256 .f32 × Vec F S2x256 .f32
  | 0, _ =>
    (out10C_at V c (pt 50 (by decide)) rfl (h1Full V c) (ph0 V c 49 (by decide)).2.1, VO11.read (Elt F) VO11.junk,
     suppC_at V c (pt 50 (by decide)) rfl (h1Full V c) (ph0 V c 49 (by decide)).2.1, stC_at V c (pt 50 (by decide)) rfl (h1Full V c) (ph0 V c 49 (by decide)).2.1)
  | k + 1, hk =>
    if hE : k + 1 = 49 then
      (out10E_at V c (pt (50 + (k + 1)) (by omega)) (by show 50 + (k + 1) = 99; omega) (ph1 k (Nat.lt_of_succ_lt hk)).2.2.1 (h1Full V c) (ph1 k (Nat.lt_of_succ_lt hk)).2.2.2,
       out11E_at V c (pt (50 + (k + 1)) (by omega)) (by show 50 + (k + 1) = 99; omega) (ph1 k (Nat.lt_of_succ_lt hk)).2.2.1 (h1Full V c) (ph1 k (Nat.lt_of_succ_lt hk)).2.2.2,
       (ph1 k (Nat.lt_of_succ_lt hk)).2.2.1,
       stE_at V c (pt (50 + (k + 1)) (by omega)) (by show 50 + (k + 1) = 99; omega) (ph1 k (Nat.lt_of_succ_lt hk)).2.2.1 (h1Full V c) (ph1 k (Nat.lt_of_succ_lt hk)).2.2.2)
    else
      (out10D_at V c (pt (50 + (k + 1)) (by omega)) (by show 50 < 50 + (k + 1); omega) (by show 50 + (k + 1) < 99; omega) (ph1 k (Nat.lt_of_succ_lt hk)).2.2.1 (h1Full V c) (ph1 k (Nat.lt_of_succ_lt hk)).2.2.2,
       (ph1 k (Nat.lt_of_succ_lt hk)).2.1,
       (ph1 k (Nat.lt_of_succ_lt hk)).2.2.1,
       stD_at V c (pt (50 + (k + 1)) (by omega)) (by show 50 < 50 + (k + 1); omega) (by show 50 + (k + 1) < 99; omega) (ph1 k (Nat.lt_of_succ_lt hk)).2.2.1 (h1Full V c) (ph1 k (Nat.lt_of_succ_lt hk)).2.2.2)

theorem ph1_zero (h : 0 < 50) :
    ph1 V c 0 h = (out10C_at V c (pt 50 (by decide)) rfl (h1Full V c) (ph0 V c 49 (by decide)).2.1, VO11.read (Elt F) VO11.junk,
     suppC_at V c (pt 50 (by decide)) rfl (h1Full V c) (ph0 V c 49 (by decide)).2.1, stC_at V c (pt 50 (by decide)) rfl (h1Full V c) (ph0 V c 49 (by decide)).2.1) := rfl

theorem ph1_succ_last (k : ℕ) (hk : k + 1 < 50) (hE : k + 1 = 49) :
    ph1 V c (k + 1) hk =
      (out10E_at V c (pt (50 + (k + 1)) (by omega)) (by show 50 + (k + 1) = 99; omega) (ph1 V c k (Nat.lt_of_succ_lt hk)).2.2.1 (h1Full V c) (ph1 V c k (Nat.lt_of_succ_lt hk)).2.2.2,
       out11E_at V c (pt (50 + (k + 1)) (by omega)) (by show 50 + (k + 1) = 99; omega) (ph1 V c k (Nat.lt_of_succ_lt hk)).2.2.1 (h1Full V c) (ph1 V c k (Nat.lt_of_succ_lt hk)).2.2.2,
       (ph1 V c k (Nat.lt_of_succ_lt hk)).2.2.1,
       stE_at V c (pt (50 + (k + 1)) (by omega)) (by show 50 + (k + 1) = 99; omega) (ph1 V c k (Nat.lt_of_succ_lt hk)).2.2.1 (h1Full V c) (ph1 V c k (Nat.lt_of_succ_lt hk)).2.2.2) :=
  dif_pos hE

theorem ph1_succ_mid (k : ℕ) (hk : k + 1 < 50) (hE : ¬ k + 1 = 49) :
    ph1 V c (k + 1) hk =
      (out10D_at V c (pt (50 + (k + 1)) (by omega)) (by show 50 < 50 + (k + 1); omega) (by show 50 + (k + 1) < 99; omega) (ph1 V c k (Nat.lt_of_succ_lt hk)).2.2.1 (h1Full V c) (ph1 V c k (Nat.lt_of_succ_lt hk)).2.2.2,
       (ph1 V c k (Nat.lt_of_succ_lt hk)).2.1,
       (ph1 V c k (Nat.lt_of_succ_lt hk)).2.2.1,
       stD_at V c (pt (50 + (k + 1)) (by omega)) (by show 50 < 50 + (k + 1); omega) (by show 50 + (k + 1) < 99; omega) (ph1 V c k (Nat.lt_of_succ_lt hk)).2.2.1 (h1Full V c) (ph1 V c k (Nat.lt_of_succ_lt hk)).2.2.2) :=
  dif_neg hE

def PhiS : (n : ℕ) → n ≤ cfg0.N → sProp 𝕄
  | 0, _ => Pipeline.ΦA spec0 c
  | n + 1, hn =>
    if h : n < 50 then
      iprop((owns (c : Thread nD τ) scM0 fullShare (ph0 V c n h).1
          ∗ (∃ f, VS1.loc (c : Thread nD τ) ↦[VS1.set]{fullShare} VS1.writes (Elt F) f (ph0 V c n h).2.2)
          ∗ owns (c : Thread nD τ) scM2 fullShare (ph0 V c n h).2.1 ∗ Rest5 (F := F) c) ∗ (∃ r, prngReg c r))
    else
      iprop((owns (c : Thread nD τ) scM0 fullShare (ph1 V c (n - 50) (by have := hn; rw [N0'] at this; omega)).2.2.1
          ∗ owns (c : Thread nD τ) scM1 fullShare (h1Full V c)
          ∗ owns (c : Thread nD τ) scM2 fullShare (ph1 V c (n - 50) (by have := hn; rw [N0'] at this; omega)).2.2.2 ∗ Rest5 (F := F) c) ∗ (∃ r, prngReg c r))

theorem PhiS_zero (n : ℕ) (h : n ≤ cfg0.N) (hz : n = 0) : PhiS V c n h = Pipeline.ΦA spec0 c := by
  subst hz; rfl

theorem PhiS_lo (n : ℕ) (hn : n + 1 ≤ cfg0.N) (h : n < 50) :
    PhiS V c (n + 1) hn = iprop((owns (c : Thread nD τ) scM0 fullShare (ph0 V c n h).1
          ∗ (∃ f, VS1.loc (c : Thread nD τ) ↦[VS1.set]{fullShare} VS1.writes (Elt F) f (ph0 V c n h).2.2)
          ∗ owns (c : Thread nD τ) scM2 fullShare (ph0 V c n h).2.1 ∗ Rest5 (F := F) c) ∗ (∃ r, prngReg c r)) :=
  dif_pos h

theorem PhiS_hi (n : ℕ) (hn : n + 1 ≤ cfg0.N) (h : ¬ n < 50) (hk : n - 50 < 50) :
    PhiS V c (n + 1) hn = iprop((owns (c : Thread nD τ) scM0 fullShare (ph1 V c (n - 50) hk).2.2.1
          ∗ owns (c : Thread nD τ) scM1 fullShare (h1Full V c)
          ∗ owns (c : Thread nD τ) scM2 fullShare (ph1 V c (n - 50) hk).2.2.2 ∗ Rest5 (F := F) c) ∗ (∃ r, prngReg c r)) :=
  dif_neg h

def out10At : Vec F S200x256 .bf16 :=
  if h : 50 ≤ t.val then (ph1 V c (t.val - 50) (by have := lt_of_lt_of_eq t.isLt N0'; omega)).1 else VO10.read (Elt F) VO10.junk

def out11At : Vec F S2x256 .f32 := (ph1 V c 49 (by decide)).2.1

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out10At V c t
    | ⟨11, _⟩ => out11At V c
  Φ t := PhiS V c t.val (Nat.le_of_lt_succ t.isLt)
  q _ := fullShare
  owed _ := 0

theorem A_eq0 (w : Fin cfg0.W) : (dat0 V c).A w = V c (Pipeline.arrRef spec0 w) := by
  dsimp only [dat0]

theorem PhiS_castSucc :
    (dat0 V c).Φ t.castSucc = PhiS V c t.val (Nat.le_of_lt t.isLt) := by
  dsimp only [dat0]; simp only [Fin.coe_castSucc]

theorem after0_10 : (dat0 V c).after 10 t = out10At V c t := by dsimp only [dat0]
theorem after0_11 : (dat0 V c).after 11 t = out11At V c := by dsimp only [dat0]

theorem before0_0 (d) : (dat0 V c).before 0 t d = iblk0 V c 0 t :=
  before0_of V _ 0 rfl (fun _ => rfl) (fun _ _ _ => rfl) rfl (fun _ => rfl) t d
theorem before0_1 (d) : (dat0 V c).before 1 t d = iblk0 V c 1 t :=
  before0_of V _ 1 rfl (fun _ => rfl) (fun _ _ _ => rfl) rfl (fun _ => rfl) t d
theorem before0_2 (d) : (dat0 V c).before 2 t d = iblk0 V c 2 t :=
  before0_of V _ 2 rfl (fun _ => rfl) (fun _ _ _ => rfl) rfl (fun _ => rfl) t d
theorem before0_3 (d) : (dat0 V c).before 3 t d = iblk0 V c 3 t :=
  before0_of V _ 3 rfl (fun _ => rfl) (fun _ _ _ => rfl) rfl (fun _ => rfl) t d
theorem before0_4 (d) : (dat0 V c).before 4 t d = iblk0 V c 4 t :=
  before0_of V _ 4 rfl (fun _ => rfl) (fun _ _ _ => rfl) rfl (fun _ => rfl) t d
theorem before0_5 (d) : (dat0 V c).before 5 t d = iblk0 V c 5 t :=
  before0_of V _ 5 rfl (fun _ => rfl) (fun _ _ _ => rfl) rfl (fun _ => rfl) t d
theorem before0_6 (d) : (dat0 V c).before 6 t d = iblk0 V c 6 t :=
  before0_of V _ 6 rfl (fun _ => rfl) (fun _ _ _ => rfl) rfl (fun _ => rfl) t d
theorem before0_7 (d) : (dat0 V c).before 7 t d = iblk0 V c 7 t :=
  before0_of V _ 7 rfl (fun _ => rfl) (fun _ _ _ => rfl) rfl (fun _ => rfl) t d
theorem before0_8 (d) : (dat0 V c).before 8 t d = iblk0 V c 8 t :=
  before0_of V _ 8 rfl (fun _ => rfl) (fun _ _ _ => rfl) rfl (fun _ => rfl) t d
theorem before0_9 (d) : (dat0 V c).before 9 t d = iblk0 V c 9 t :=
  before0_of V _ 9 rfl (fun _ => rfl) (fun _ _ _ => rfl) rfl (fun _ => rfl) t d

def bodyPre0 : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

theorem bodyPost0_eq : bodyPost0 V c t = iprop((dat0 V c).Φ t.succ ∗ (dat0 V c).owesAt () t.castSucc
    ∗ owns (c : Thread nD τ) (ms0_0 t) fullShare (iblk0 V c 0 t)
    ∗ owns (c : Thread nD τ) (ms0_1 t) fullShare (iblk0 V c 1 t)
    ∗ owns (c : Thread nD τ) (ms0_2 t) fullShare (iblk0 V c 2 t)
    ∗ owns (c : Thread nD τ) (ms0_3 t) fullShare (iblk0 V c 3 t)
    ∗ owns (c : Thread nD τ) (ms0_4 t) fullShare (iblk0 V c 4 t)
    ∗ owns (c : Thread nD τ) (ms0_5 t) fullShare (iblk0 V c 5 t)
    ∗ owns (c : Thread nD τ) (ms0_6 t) fullShare (iblk0 V c 6 t)
    ∗ owns (c : Thread nD τ) (ms0_7 t) fullShare (iblk0 V c 7 t)
    ∗ owns (c : Thread nD τ) (ms0_8 t) fullShare (iblk0 V c 8 t)
    ∗ owns (c : Thread nD τ) (ms0_9 t) fullShare (iblk0 V c 9 t)
    ∗ (dat0 V c).leavesExact 10 t ∗ (dat0 V c).leavesExact 11 t) := by
  unfold bodyPost0 Dat.leavesExact
  rewrite [liveAt0_0 t]
  rfl

end Cert.Kernel.Hand

end
-- ==== Proof.Bits.SbA.lean ====
import proofs.«134973_g77017353552286_cont_9to1c4b_820_20_alg».proof.Proof.Bits.Reg0a
set_option maxRecDepth 16384

noncomputable section

namespace Cert.Kernel.Hand

open Idealize.ShloMosaic Idealize.ShloMosaic.TcCoe Idealize.SL Idealize.SL.RA Idealize.SL.BI Idealize.SL.BI.BIBase Idealize.SL.Sem Idealize.ShloMosaic.Pipeline Idealize.ShloMosaic.Rounds Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_A (c : Dev nD) (t : Fin cfg0.N) (h : t.val = 0) :
    bodyPre0 V c t ⊢ wp frame (wpE (defs₀ (F := F)) Variants.none c none) Set.univ (bodyAt0 t) (fun _ => bodyPost0 V c t) := by
  obtain ⟨n, hn⟩ := t
  have hn0 : n = 0 := h
  subst hn0
  generalize ht : (⟨0, hn⟩ : Fin cfg0.N) = t at h ⊢
  have hc := condsA t h
  have hlo : t.val < 50 := by omega
  rw [bodyPost0_eq]
  unfold bodyPre0 bodyAt0
  simp only [before0_0, before0_1, before0_2, before0_3, before0_4, before0_5, before0_6, before0_7, before0_8, before0_9]
  rw [show (dat0 V c).Φ t.succ = PhiS V c (t.val + 1) t.isLt from rfl, PhiS_lo V c t.val t.isLt hlo]
  rw [show ph0 V c t.val hlo = (suppA_at V c t h, stA_at V c t h, slabA_at V c t h) from by subst ht; rfl]
  dsimp only
  unfold suppA_at stA_at slabA_at at0 supp_A st_A slab_A
  rw [Dat.leavesExact_idle (dat0 V c) 10 t (idle10 t hc.2.2.2.1) (noFlush10 t hc.2.2.2.1)]
  rw [Dat.leavesExact_idle (dat0 V c) 11 t (idle11 t hc.2.2.2.2.2.2) (noFlush11 t hc.2.2.2.2.2.2)]
  rw [PhiS_castSucc V c t, PhiS_zero V c _ _ h, PhiA0_eq]
  rw [show (iprop(∃ d, owns (c : Thread nD τ) scM1 fullShare d) : sProp 𝕄)
      = iprop(∃ d, ∃ g, ⌜VS1.read (Elt F) g = d⌝ ∗ (VS1.loc (c : Thread nD τ) ↦[VS1.set]{fullShare} g)) from rfl]
  iintro ⟨⟨⟨HS0, ⟨%d15, %g15, -, HS1⟩, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _).2.2.2 ((dat0 V c).before 10 t d10) ((dat0 V c).before 11 t d11) g15 Set.univ _)
  iframe H0 H1 H2 H3 H4 H5 H6 H7 H8 H9 H10 H11 HS0 HS1 HS2
  iintro ⟨H0, H1, H2, H3, H4, H5, H6, H7, H8, H9, H10, H11, ⟨%e14, HS0⟩, HS1, ⟨%e16, HS2⟩⟩
  iframe Ho H0 H1 H2 H3 H4 H5 H6 H7 H8 H9
  isplitl [HS0 HS1 HS2 HR Hg]
  · isplitl [HS0 HS1 HS2 HR]
    · isplitl [HS0]
      · unfold owns; iexists _; isplitr
        swap; · iexact HS0
        ipureintro; exact View.read_writes_of_cover _ _ _ _ _ (scover14_A c _ _ _ _ _ _ _ _ _ _ _ _ _ _ _ _ _ _ _ _ _ _ _ _ _ _ _ _ _ _ _ _ _ _ _ _ _ _ _ _ _ _)
      isplitl [HS1]
      · iexists g15; iexact HS1
      isplitl [HS2]
      · unfold owns; iexists _; isplitr
        swap; · iexact HS2
        ipureintro; exact View.read_writes_of_cover _ _ _ _ _ (scover16_A c _ _ _ _ _ _ _ _ _ _ _ _ _ _ _ _ _ _ _ _ _ _ _ _ _ _ _ _ _ _ _ _ _ _ _ _ _ _ _ _ _ _)
      iexact HR
    iexact Hg
  isplitl [H10]; · iexists _; iexact H10
  iexists _; iexact H11

end Cert.Kernel.Hand

end
-- ==== Proof.Bits.SbB.lean ====
import proofs.«134973_g77017353552286_cont_9to1c4b_820_20_alg».proof.Proof.Bits.Reg0a
set_option maxRecDepth 16384

noncomputable section

namespace Cert.Kernel.Hand

open Idealize.ShloMosaic Idealize.ShloMosaic.TcCoe Idealize.SL Idealize.SL.BI Idealize.SL.BI.BIBase Idealize.SL.Sem Idealize.ShloMosaic.Pipeline Cert.Kernel Cert.Kernel.Gen

variable {F : FTy → Type} [FloatOps F]

variable (V : (c : Dev nD) → (b : Ref sig .tc) → Buf (Elt F) ((c : Thread nD τ).loc b))

set_option maxHeartbeats 4800000 in
theorem sound_B (c : Dev nD) (t : Fin cfg0.N) (h0 : t.val ≠ 0) (h : t.val < 50) :
    bodyPre0 V c t ⊢ wp frame (wpE (defs₀ (F := F)) Variants.none c none) Set.univ (bodyAt0 t) (fun _ => bodyPost0 V c t) := by
  obtain ⟨n, hn⟩ := t
  obtain ⟨m, rfl⟩ : ∃ m, n = m + 1 := ⟨n - 1, by have : n ≠ 0 := h0; omega⟩
  have hm : m + 1 < 50 := h
  have hm' : m < 50 := Nat.lt_of_succ_lt hm
  have hc := condsB _ h0 h
  rw [bodyPost0_eq]
  unfold bodyPre0 bodyAt0
  simp only [before0_0, before0_1, before0_2, before0_3, before0_4, before0_5, before0_6, before0_7, before0_8, before0_9]
  rw [show (dat0 V c).Φ (Fin.succ ⟨m + 1, hn⟩) = PhiS V c (m + 1 + 1) hn from rfl, PhiS_lo V c (m + 1) hn hm]
  rw [show (dat0 V c).Φ (Fin.castSucc ⟨m + 1, hn⟩) = PhiS V c (m + 1) (Nat.le_of_lt hn) from rfl, PhiS_lo V c m (Nat.le_of_lt hn) hm']
  rw [ph0_succ V c m hm]
  rw [Dat.leavesExact_idle (dat0 V c) 10 _ (idle10 _ hc.2.2.2.1) (noFlush10 _ hc.2.2.2.1)]
  rw [Dat.leavesExact_idle (dat0 V c) 11 _ (idle11 _ hc.2.2.2.2.2.2) (noFlush11 _ hc.2.2.2.2.2.2)]
  dsimp only
  iintro ⟨⟨⟨HS0, ⟨%f, HS1⟩, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c _ _ _ _ _ _ _ _ _ _ _ _ _ _ _ _ _ _ _ _ _ _ _ _ _ _ _ _ _ _ _ _ _ _ _ _ _ _ _ _ _ _ _ _ _ _ _ _ (ph0 V c m hm').1 (ph0 V c m hm').2.1).2.2
    ((dat0 V c).before 10 _ d10) ((dat0 V c).before 11 _ d11) (VS1.writes (Elt F) f (ph0 V c m hm').2.2) Set.univ _)
  iframe H0 H1 H2 H3 H4 H5 H6 H7 H8 H9 H10 H11 HS0 HS1 HS2
  iintro ⟨H0, H1, H2, H3, H4, H5, H6, H7, H8, H9, H10, H11, HS0, HS1, ⟨%f', %hf', HS2⟩⟩
  obtain rfl := hsc2.eq_unread hf'
  iframe Ho H0 H1 H2 H3 H4 H5 H6 H7 H8 H9
  isplitl [HS0 HS1 HS2 HR Hg]
  · isplitl [HS0 HS1 HS2 HR]
    · isplitl [HS0]; · iexact HS0
      isplitl [HS1]
      · iexists f
        rw [View.writes_append]
        iexact HS1
      isplitl [HS2]
      · unfold owns; iexists _; isplitr
        swap; · iexact HS2
        ipureintro; rfl
      iexact HR
    iexact Hg
  isplitl [H10]; · iexists _; iexact H10
  iexists _; iexact H11

end Cert.Kernel.Hand

end
-- ==== Proof.Bits.SbC.lean ====
import proofs.«134973_g77017353552286_cont_9to1c4b_820_20_alg».proof.Proof.Bits.Reg0a
set_option maxRecDepth 16384

noncomputable section

namespace Cert.Kernel.Hand

open Idealize.ShloMosaic Idealize.ShloMosaic.TcCoe Idealize.SL Idealize.SL.RA Idealize.SL.BI Idealize.SL.BI.BIBase Idealize.SL.Sem Idealize.ShloMosaic.Pipeline Cert.Kernel Cert.Kernel.Gen

variable {F : FTy → Type} [FloatOps F]

variable (V : (c : Dev nD) → (b : Ref sig .tc) → Buf (Elt F) ((c : Thread nD τ).loc b))

set_option maxHeartbeats 4800000 in
theorem sound_C (c : Dev nD) (t : Fin cfg0.N) (h : t.val = 50)
    (hcov : ∀ y : S10000x256.Idx, ∃ pc ∈ (ph0 V c 49 (by decide)).2.2, y ∈ pc.1.set) :
    bodyPre0 V c t ⊢ wp frame (wpE (defs₀ (F := F)) Variants.none c none) Set.univ (bodyAt0 t) (fun _ => bodyPost0 V c t) := by
  have htt : pt 50 (by decide) = t := Fin.ext h.symm
  have hc := condsC t h
  rw [bodyPost0_eq]
  unfold bodyPre0 bodyAt0
  simp only [before0_0, before0_1, before0_2, before0_3, before0_4, before0_5, before0_6, before0_7, before0_8, before0_9]
  rw [show (dat0 V c).leavesExact 10 t = owns (c : Thread nD τ) (ms0_10 t) fullShare ((dat0 V c).after 10 t) from by
    unfold Dat.leavesExact; rw [live10 t hc.2.2.2.1], after0_10]
  rw [Dat.leavesExact_idle (dat0 V c) 11 t (idle11 t hc.2.2.2.2.2.2) (noFlush11 t hc.2.2.2.2.2.2)]
  rw [show (dat0 V c).Φ t.succ = PhiS V c (t.val + 1) t.isLt from rfl, PhiS_hi V c t.val _ (by omega) (by omega)]
  unfold out10At
  rw [dif_pos (by omega : 50 ≤ t.val)]
  have e0 : ∀ (k : ℕ) (hk : k < 50), k = 0 → ph1 V c k hk = ph1 V c 0 (by decide) := by
    intro k hk e; subst e; rfl
  rw [e0 (t.val - 50) _ (by omega), ph1_zero]
  have e49 : ∀ (n : ℕ) (hn : n ≤ cfg0.N), n = 50 → PhiS V c n hn = PhiS V c (49 + 1) (by rw [N0']; decide) := by
    intro n hn e; subst e; rfl
  rw [PhiS_castSucc V c t, e49 _ _ h, PhiS_lo V c 49 _ (by decide)]
  subst htt
  dsimp only
  have h50 : (50 : ℕ) < 100 := by decide
  unfold suppC_at stC_at out10C_at at0 supp_C st_C out10_C
  iintro ⟨⟨⟨HS0, ⟨%f1, HS1⟩, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _ (h1Full V c) (ph0 V c 49 (by decide)).2.1).2.2.2 ((dat0 V c).before 11 (pt 50 h50) d11) Set.univ _)
  iframe H0 H1 H2 H3 H4 H5 H6 H7 H8 H9 H11
  isplitl [H10]; · iexists _; iexact H10
  isplitl [HS0]; · iexists _; iexact HS0
  isplitl [HS1]
  · unfold owns; iexists _; isplitr
    swap; · iexact HS1
    ipureintro; unfold h1Full; exact View.read_writes_of_cover _ _ _ _ _ hcov
  isplitl [HS2]; · iexact HS2
  iintro ⟨H0, H1, H2, H3, H4, H5, H6, H7, H8, H9, ⟨%e10, H10⟩, H11, ⟨%es0, HS0⟩, HS1, ⟨%es2, %hes2, HS2⟩⟩
  obtain rfl := hsc2.eq_unread hes2
  iframe Ho H0 H1 H2 H3 H4 H5 H6 H7 H8 H9
  isplitl [HS0 HS1 HS2 HR Hg]
  · isplitr [Hg]
    swap; · iexact Hg
    isplitl [HS0]
    · unfold owns; iexists _; isplitr
      swap; · iexact HS0
      ipureintro; exact View.read_writes_of_cover _ _ _ _ _ (scover14_C c _ _ _ _ _ _ _ _ _ _ _ _ _ _ _ _ _ _ _ _ _ _ _ _ _ _ _ _ _ _ _ _ _ _ _ _ _ _ _ _ _ _ _ _)
    isplitl [HS1]; · iexact HS1
    isplitl [HS2]
    · unfold owns; iexists _; isplitr
      swap; · iexact HS2
      ipureintro; rfl
    iexact HR
  isplitl [H10]
  · unfold owns; iexists _; isplitr
    swap; · iexact H10
    ipureintro; exact View.read_writes_of_cover _ _ _ _ _ (cover12_C c _ _ _ _ _ _ _ _ _ _ _ _ _ _ _ _ _ _ _ _ _ _ _ _ _ _ _ _ _ _ _ _ _ _ _ _ _ _ _ _ _ _ _ _)
  iexists _; iexact H11

end Cert.Kernel.Hand

end
-- ==== Proof.Bits.SbD.lean ====
import proofs.«134973_g77017353552286_cont_9to1c4b_820_20_alg».proof.Proof.Bits.Reg0a
set_option maxRecDepth 16384

noncomputable section

namespace Cert.Kernel.Hand

open Idealize.ShloMosaic Idealize.ShloMosaic.TcCoe Idealize.SL Idealize.SL.RA Idealize.SL.BI Idealize.SL.BI.BIBase Idealize.SL.Sem Idealize.ShloMosaic.Pipeline Cert.Kernel Cert.Kernel.Gen

variable {F : FTy → Type} [FloatOps F]

variable (V : (c : Dev nD) → (b : Ref sig .tc) → Buf (Elt F) ((c : Thread nD τ).loc b))

theorem ph1_congr (c : Dev nD) (a b : ℕ) (ha : a < 50) (hb : b < 50) (e : a = b) : ph1 V c a ha = ph1 V c b hb := by
  subst e; rfl

theorem Phi_hi (c : Dev nD) (s : Fin (cfg0.N + 1)) (k : ℕ) (hk : k < 50) (e : s.val = 50 + k + 1) :
    (dat0 V c).Φ s = iprop((owns (c : Thread nD τ) scM0 fullShare (ph1 V c k hk).2.2.1
          ∗ owns (c : Thread nD τ) scM1 fullShare (h1Full V c)
          ∗ owns (c : Thread nD τ) scM2 fullShare (ph1 V c k hk).2.2.2 ∗ Rest5 (F := F) c) ∗ (∃ r, prngReg c r)) := by
  obtain ⟨n, hn⟩ := s
  simp only at e
  subst e
  rw [show (dat0 V c).Φ ⟨50 + k + 1, hn⟩ = PhiS V c (50 + k + 1) (Nat.le_of_lt_succ hn) from rfl,
    PhiS_hi V c (50 + k) _ (by omega) (by omega), ph1_congr V c (50 + k - 50) k (by omega) hk (by omega)]

theorem out10At_hi (c : Dev nD) (t : Fin cfg0.N) (k : ℕ) (hk : k < 50) (e : t.val = 50 + k) :
    out10At V c t = (ph1 V c k hk).1 := by
  unfold out10At
  rw [dif_pos (show 50 ≤ t.val by omega)]
  rw [ph1_congr V c (t.val - 50) k _ hk (by omega)]

set_option maxHeartbeats 4800000 in
theorem sound_D (c : Dev nD) (t : Fin cfg0.N) (h : 50 < t.val) (h' : t.val < 99) :
    bodyPre0 V c t ⊢ wp frame (wpE (defs₀ (F := F)) Variants.none c none) Set.univ (bodyAt0 t) (fun _ => bodyPost0 V c t) := by
  obtain ⟨k, hk'⟩ : ∃ k, t.val = 50 + (k + 1) := ⟨t.val - 51, by omega⟩
  have hk : k + 1 < 50 := by omega
  have hc := condsD t h h'
  rw [bodyPost0_eq]
  unfold bodyPre0 bodyAt0
  simp only [before0_0, before0_1, before0_2, before0_3, before0_4, before0_5, before0_6, before0_7, before0_8, before0_9]
  rw [Phi_hi V c t.castSucc k (Nat.lt_of_succ_lt hk) hk', Phi_hi V c t.succ (k + 1) hk (congrArg (· + 1) hk')]
  rw [show (dat0 V c).leavesExact 10 t = owns (c : Thread nD τ) (ms0_10 t) fullShare ((dat0 V c).after 10 t) from by
    unfold Dat.leavesExact; rw [live10 t hc.2.2.2.1], after0_10, out10At_hi V c t (k + 1) hk hk']
  rw [Dat.leavesExact_idle (dat0 V c) 11 t (idle11 t hc.2.2.2.2.2.2) (noFlush11 t hc.2.2.2.2.2.2)]
  rw [ph1_succ_mid V c k hk (by omega)]
  dsimp only
  obtain ⟨n, hn⟩ := t
  simp only at hk'
  subst hk'
  unfold out10D_at stD_at at0 out10_D st_D
  iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_D c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _ (ph1 V c k (Nat.lt_of_succ_lt hk)).2.2.1 (h1Full V c) (ph1 V c k (Nat.lt_of_succ_lt hk)).2.2.2).2.2 _ Set.univ _)
  iframe H0 H1 H2 H3 H4 H5 H6 H7 H8 H9 H11 HS0 HS1 HS2
  isplitl [H10]; · iexists _; iexact H10
  iintro ⟨H0, H1, H2, H3, H4, H5, H6, H7, H8, H9, ⟨%f12, H10⟩, H11, HS0, HS1, ⟨%f16, %hf16, HS2⟩⟩
  obtain rfl := hsc2.eq_unread hf16
  iframe Ho H0 H1 H2 H3 H4 H5 H6 H7 H8 H9
  isplitl [HS0 HS1 HS2 HR Hg]
  · isplitr [Hg]
    · isplitl [HS0]; · iexact HS0
      isplitl [HS1]; · iexact HS1
      isplitl [HS2]
      · unfold owns; iexists _; isplitr
        swap; · iexact HS2
        ipureintro; rfl
      iexact HR
    iexact Hg
  isplitl [H10]
  · unfold owns; iexists _; isplitr
    swap; · iexact H10
    ipureintro; exact View.read_writes_of_cover _ _ _ _ _ (cover12_D c _ _ _ _ _ _ _ _ _ _ _ _ _ _ _ _ _ _ _ _ _ _ _ _ _ _ _ _ _ _ _ _ _ _ _ _ _ _ _ _ _ _ _ _ _)
  iexists _; iexact H11

end Cert.Kernel.Hand

end
-- ==== Proof.Bits.SbE.lean ====
import proofs.«134973_g77017353552286_cont_9to1c4b_820_20_alg».proof.Proof.Bits.SbD
set_option maxRecDepth 16384

noncomputable section

namespace Cert.Kernel.Hand

open Idealize.ShloMosaic Idealize.ShloMosaic.TcCoe Idealize.SL Idealize.SL.RA Idealize.SL.BI Idealize.SL.BI.BIBase Idealize.SL.Sem Idealize.ShloMosaic.Pipeline Cert.Kernel Cert.Kernel.Gen

variable {F : FTy → Type} [FloatOps F]

variable (V : (c : Dev nD) → (b : Ref sig .tc) → Buf (Elt F) ((c : Thread nD τ).loc b))

theorem out11At_eq (c : Dev nD) (k : ℕ) (hk : k < 50) (e : k = 49) : out11At V c = (ph1 V c k hk).2.1 := by
  unfold out11At
  rw [ph1_congr V c 49 k _ hk e.symm]

set_option maxHeartbeats 4800000 in
theorem sound_E (c : Dev nD) (t : Fin cfg0.N) (h : t.val = 99) :
    bodyPre0 V c t ⊢ wp frame (wpE (defs₀ (F := F)) Variants.none c none) Set.univ (bodyAt0 t) (fun _ => bodyPost0 V c t) := by
  obtain ⟨k, hk'⟩ : ∃ k, t.val = 50 + (k + 1) := ⟨48, by omega⟩
  have hk : k + 1 < 50 := by omega
  have hE : k + 1 = 49 := by omega
  have hc := condsE t h
  rw [bodyPost0_eq]
  unfold bodyPre0 bodyAt0
  simp only [before0_0, before0_1, before0_2, before0_3, before0_4, before0_5, before0_6, before0_7, before0_8, before0_9]
  rw [Phi_hi V c t.castSucc k (Nat.lt_of_succ_lt hk) hk', Phi_hi V c t.succ (k + 1) hk (congrArg (· + 1) hk')]
  rw [show (dat0 V c).leavesExact 10 t = owns (c : Thread nD τ) (ms0_10 t) fullShare ((dat0 V c).after 10 t) from by
    unfold Dat.leavesExact; rw [live10 t hc.2.2.2.1], after0_10, out10At_hi V c t (k + 1) hk hk']
  rw [show (dat0 V c).leavesExact 11 t = owns (c : Thread nD τ) (ms0_11 t) fullShare ((dat0 V c).after 11 t) from by
    unfold Dat.leavesExact; rw [live11 t hc.2.2.2.2.2.2], after0_11, out11At_eq V c (k + 1) hk hE]
  rw [ph1_succ_last V c k hk hE]
  dsimp only
  obtain ⟨n, hn⟩ := t
  simp only at hk'
  subst hk'
  unfold out10E_at out11E_at stE_at at0 out10_E out11_E st_E
  iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_E c _ _ _ _ _ _ _ _ _ _ _ _ _ _ _ _ _ _ _ _ _ _ _ _ _ scM0 hsc0 scM1 hsc1 scM2 hsc2 hc.1 hc.2.1 hc.2.2.1 hc.2.2.2.1 hc.2.2.2.2.1 hc.2.2.2.2.2.1 hc.2.2.2.2.2.2 _ _ _ _ _ _ _ _ _ _ (ph1 V c k (Nat.lt_of_succ_lt hk)).2.2.1 (h1Full V c) (ph1 V c k (Nat.lt_of_succ_lt hk)).2.2.2).2.2.2 Set.univ _)
  iframe H0 H1 H2 H3 H4 H5 H6 H7 H8 H9 HS0 HS1 HS2
  isplitl [H10]; · iexists _; iexact H10
  isplitl [H11]; · iexists _; iexact H11
  iintro ⟨H0, H1, H2, H3, H4, H5, H6, H7, H8, H9, ⟨%f12, H10⟩, ⟨%f13, H11⟩, HS0, HS1, ⟨%f16, %hf16, HS2⟩⟩
  obtain rfl := hsc2.eq_unread hf16
  iframe Ho H0 H1 H2 H3 H4 H5 H6 H7 H8 H9
  isplitl [HS0 HS1 HS2 HR Hg]
  · isplitr [Hg]
    · isplitl [HS0]; · iexact HS0
      isplitl [HS1]; · iexact HS1
      isplitl [HS2]
      · unfold owns; iexists _; isplitr
        swap; · iexact HS2
        ipureintro; rfl
      iexact HR
    iexact Hg
  isplitl [H10]
  · unfold owns; iexists _; isplitr
    swap; · iexact H10
    ipureintro; exact View.read_writes_of_cover _ _ _ _ _ (cover12_E c _ _ _ _ _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover13_E c _ _ _ _ _ _ _ _ _ _ _ _ _ _ _ _ _ _ _ _ _ _ _ _ _ _ _ _ _ _ _ _ _ _ _ _ _ _ _ _ _ _ _ _ _)

end Cert.Kernel.Hand

end
-- ==== Proof.Bits.Run.lean ====
import proofs.«134973_g77017353552286_cont_9to1c4b_820_20_alg».proof.Proof.Gen.Kernel.Launch
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Rounds
open Idealize.SL Idealize.SL.RA Idealize.SL.BI Idealize.SL.BI.BIBase Idealize.SL.ProofMode
open Idealize.ShloMosaic.Pipeline (Dat BodyObligation)

variable {F : FTy → Type} [FloatOps F]

local notation "𝕄" => MT nD τ sig Unit (Elt F) ℕ (UR sig nD τ) ℕ

abbrev Vals (F : FTy → Type) := (c : Dev nD) → (b : Ref sig .tc) → Buf (Elt F) ((c : Thread nD τ).loc b)
abbrev Dats (F : FTy → Type) (cfg : Pipeline.Cfg sig Λ₀) := Vals F → (c : Dev nD) → Dat τ (Elt F) Unit ℕ (UR sig nD τ) ℕ cfg c
abbrev Owes0 (c : Dev nD) : sProp 𝕄 := iprop(∃ W, owes (c : Thread nD τ) (0 : CellTallies nD τ sig Unit) W)

theorem owesAt_in {cfg : Pipeline.Cfg sig Λ₀} {c : Dev nD} (dat : Dat τ (Elt F) Unit ℕ (UR sig nD τ) ℕ cfg c)
    (h : dat.owed 0 = 0) (hr : dat.recorded 0 = Set.univ) : Owes0 c ⊢ dat.owesAt () 0 := by
  unfold Pipeline.Dat.owesAt Pipeline.owesWithin
  rw [h]
  iintro ⟨%W, HO⟩; iexists W; isplitr
  · ipureintro; exact fun x _ => Or.inl (hr ▸ Set.mem_univ x)
  iexact HO

theorem owesAt_out {cfg : Pipeline.Cfg sig Λ₀} {c : Dev nD} (dat : Dat τ (Elt F) Unit ℕ (UR sig nD τ) ℕ cfg c)
    (t : Fin (cfg.N + 1)) (h : dat.owed t = 0) : dat.owesAt () t ⊢ Owes0 c := by
  unfold Pipeline.Dat.owesAt Pipeline.owesWithin
  rw [h]
  iintro ⟨%W, -, HO⟩; iexists W; iexact HO

/-- The facts about a region's proof data that the launch needs, at every entry contents `V`. -/
structure Hyp (cfg : Pipeline.Cfg sig Λ₀) (dat : Dats F cfg) : Prop where
  hA : ∀ V c w, (dat V c).A w = V c (Pipeline.arrRef cfg.spec w)
  hq : ∀ V c w, (dat V c).q w = fullShare
  how : ∀ V c t, (dat V c).owed t = 0
  hrec : ∀ V c, (dat V c).recorded 0 = Set.univ
  hbody : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)
abbrev Hyp0 := Hyp (F := F) cfg0
abbrev Hyp1 := Hyp (F := F) cfg1

variable (dat0 : Dats F cfg0) (dat1 : Dats F cfg1) (h0 : Hyp0 dat0) (h1 : Hyp1 dat1)
  (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : Vals F := fun c b => W1 m ρ c b
def W2 (c : Dev nD) : Valuation τ sig (Elt F) :=
  Pipeline.withArrays spec0 c (W1 m ρ c) fun w => (dat0 (V1 m ρ) c).arrAt w cfg0.N
abbrev V2 : Vals F := fun c b => W2 dat0 m ρ c b
def W3 (c : Dev nD) : Valuation τ sig (Elt F) :=
  Pipeline.withArrays spec1 c (W2 dat0 m ρ c) fun w => (dat1 (V2 dat0 m ρ) c).arrAt w cfg1.N

theorem V2_main_v6_0 (c : Dev nD) : V2 dat0 m ρ c main_v6_0 = (dat0 (V1 m ρ) c).arrAt 10 cfg0.N :=
  Pipeline.withArrays_arr spec0 launch0.win.arr_inj c _ _ 10
theorem V2_main_v6_1 (c : Dev nD) : V2 dat0 m ρ c main_v6_1 = (dat0 (V1 m ρ) c).arrAt 11 cfg0.N :=
  Pipeline.withArrays_arr spec0 launch0.win.arr_inj c _ _ 11

abbrev reshaped : List (Ref sig .tc) := [main_v0, main_v1, main_v2, main_v3, main_v4, main_v5]
theorem hostOps0_writes : (hostOps0 : List (HloOp τ sig (Elt F))).Forall fun op => op.writes ⊆ (reshaped.map (Proc.devRef (τ := τ) .tc)).toFinset := by
  simp only [List.Forall, StableHlo.reshape_writes, Finset.singleton_subset_iff, List.mem_toFinset]
  refine ⟨?_, ?_, ?_, ?_, ?_, ?_⟩ <;> exact List.mem_map_of_mem (by decide)

/-- A buffer that no reshape writes and that neither region has as an output's array. -/
abbrev Kept (r : Ref sig .tc) : Prop :=
  ¬ (Proc.devRef .tc r : DevRef τ sig).isScoped ∧ r ∉ reshaped ∧ (∀ w, Pipeline.arrRef spec1 w ≠ r) ∧ ∀ w, Pipeline.arrRef spec0 w = r → (cfg0.win w).isOut = false

include h0 in
theorem W3_kept (c : Dev nD) (r : Ref sig .tc) (hr : Kept r) : W3 dat0 dat1 m ρ c (Proc.devRef .tc r) = m ((c : Thread nD τ).loc r) := by
  obtain ⟨-, hr, h1, hi⟩ := hr
  unfold W3 W2
  refine (Pipeline.withArrays_of_ne spec1 c _ _ r h1).trans (Eq.trans ?_ (StableHlo.after_of_writes_sub hostOps0 (W0 m ρ c) hostOps0_writes hr))
  by_cases h : ∃ w, Pipeline.arrRef spec0 w = r
  · obtain ⟨w, rfl⟩ := h
    exact (Pipeline.withArrays_arr spec0 launch0.win.arr_inj c _ _ w).trans (((dat0 (V1 m ρ) c).arrAt_in w (hi w rfl) _).trans (h0.hA (V1 m ρ) c w))
  · exact Pipeline.withArrays_of_ne spec0 c _ _ r fun w e => h ⟨w, e⟩

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 dat0 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ Owes0 c)
abbrev heldR (c : Dev nD) (W : Valuation τ sig (Elt F)) : sProp 𝕄 := iprop(StableHlo.held (c : Thread nD τ) (Pipeline.ucRefs τ sig) W ∗ R c)

/-- Either kernel region as a segment of the run: the buffers go from `V` to `V` updated at the region's arrays. -/
def reg (pd : (p : Fin 2) → (c : Dev nD) → Dat τ (Elt F) Unit ℕ (UR sig nD τ) ℕ (Pipeline.pin (pcfgs (F := F)) adm p) c)
    (p : Fin 2) (lf : Pipeline.LaunchFacts (nD := nD) (τ := τ) cfgs p) (V : Dev nD → Valuation τ sig (Elt F))
    (hA : ∀ c w, (pd p c).A w = V c (Pipeline.arrRef (cfgs p).spec w))
    (hq : ∀ c w, (pd p c).q w = fullShare)
    (how : ∀ c t, (pd p c).owed t = 0)
    (hrec : ∀ c, (pd p c).recorded 0 = Set.univ)
    (hbody : ∀ c, BodyObligation (pd p c) (defs₀ (F := F)) Variants.none () Set.univ)
    (hin : ∀ c, (Pipeline.ΦA (cfgs p).spec c : sProp 𝕄) ⊢ (pd p c).Φ 0)
    (hout : ∀ c, (pd p c).Φ (Fin.last (cfgs p).N) ⊢ (Pipeline.ΦA (cfgs p).spec c : sProp 𝕄)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p how
  pre c := heldR c (V c)
  post c := heldR c (Pipeline.withArrays (cfgs p).spec c (V c) fun w => (pd p c).arrAt w (cfgs p).N)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    have hO := owesAt_in (pd p c) (how c 0) (hrec c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c pd ((pd p c).share_full (hq c)) (fun b => V c b)
      (fun b => Pipeline.withArrays (cfgs p).spec c (V c) (fun w => (pd p c).arrAt w (cfgs p).N) b)
      ((pd p c).arrAt · (cfgs p).N) (fun w => (Pipeline.withArrays_arr _ lf.win.arr_inj c (V c) ((pd p c).arrAt · (cfgs p).N) w).symm)
      fun b hb => Pipeline.withArrays_of_ne _ c (V c) ((pd p c).arrAt · (cfgs p).N) b fun w e => hb (Finset.mem_image.mpr ⟨w, Finset.mem_univ _, e⟩)
    rw [Pipeline.unscopedBufs_held] at hjoin
    have hO := owesAt_out (pd p c) (Fin.last _) (how c _)
    iintro ⟨Ha, HO, HY, Hrest⟩
    imodintro
    isplitl [Ha Hrest]
    · iapply hjoin; isplitl [Ha] <;> iassumption
    isplitl [HY]; · iexact HY
    iapply hO; iexact HO

include h0 h1

abbrev segs : List (Pipeline.Seg (pcfgs (F := F)) adm (pdats dat0 dat1 m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp (by simp only [List.Forall]; repeat' constructor : (hostOps0 : List (HloOp τ sig (Elt F))).Forall fun op => op.fresh = ∅)) op h) (W0 m ρ) R),
    .region (reg (pdats dat0 dat1 m ρ) 0 launch0 (W1 m ρ) (h0.hA _) (h0.hq _) (h0.how _) (h0.hrec _) (h0.hbody _) (h0.hin _) (h0.hout _)),
    .region (reg (pdats dat0 dat1 m ρ) 1 launch1 (W2 dat0 m ρ) (h1.hA _) (h1.hq _) (h1.how _) (h1.hrec _) (h1.hbody _) (h1.hin _) (h1.hout _)) ]

/-- Every fair run ends; the result buffer then holds the second region's output array, each argument its launch contents. -/
theorem value_all : θ_run defs (onTc (τ := τ) (main (F := F))) ⟨m, fun _ => 0, ρ⟩ (fun r => ∀ c : Dev nD,
      r.2.mem ((c.tc : Thread nD τ).loc main_v7) = (dat1 (V2 dat0 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats dat0 dat1 m ρ) () cellOf_inj emb₁ defs₀ 𝒱₀ L lv m ρ main
    (segs dat0 dat1 h0 h1 m ρ)
    (fun c Q => by rw [show main (F := F) c = Pipeline.Seg.run (segs dat0 dat1 h0 h1 m ρ) from (main_chain c).trans (by chain_rfl)])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => heldR c (W0 m ρ c))
    (Tₙ := fun c => iprop(StableHlo.held (c : Thread nD τ) (Pipeline.ucRefs τ sig) (W3 dat0 dat1 m ρ c) ∗ ∃ r, prngReg c r))
    (hch := ⟨fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 dat0 dat1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 dat0 dat1 m ρ c) s')
      isplitl [Hh] <;> iassumption)
    (hQ := fun s h c =>
      have rd (r : Ref sig .tc) (hr : ¬ (Proc.devRef .tc r : DevRef τ sig).isScoped) := h c _ (Finset.mem_filter.mpr ⟨StableHlo.devRef_mem_tcRefs r, hr⟩)
      have kept (r : Ref sig .tc) (hr : Kept r) := (rd r hr.1).trans (W3_kept dat0 dat1 h0 m ρ c r hr)
      ⟨(rd main_v7 (by decide)).trans (Pipeline.withArrays_arr spec1 launch1.win.arr_inj c _ _ 2),
        kept main_arg0 (by decide), kept main_arg1 (by decide), kept main_arg2 (by decide), kept main_arg3 (by decide), kept main_arg4 (by decide),
        kept main_arg5 (by decide), kept main_arg6 (by decide), kept main_arg7 (by decide), kept main_arg8 (by decide), kept main_arg9 (by decide)⟩)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (value_all dat0 dat1 h0 h1 m ρ)

end Cert.Kernel.Hand

end
-- ==== Proof.Bits.Reg1.lean ====
import proofs.«134973_g77017353552286_cont_9to1c4b_820_20_alg».proof.Proof.Gen.Kernel.Launch
import proofs.«134973_g77017353552286_cont_9to1c4b_820_20_alg».proof.Proof.Gen.Kernel.Skeleton
import proofs.«134973_g77017353552286_cont_9to1c4b_820_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0

abbrev r1_1 : Rect S2x256 := Rect.unit (s := S2x256) ![0, 0] S1x256.size inb_S2x256_S1x256_0_0

abbrev r1_2 : Rect S2x256 := Rect.unit (s := S2x256) ![1, 0] S1x256.size inb_S2x256_S1x256_1_0

noncomputable def out1_2 (x0 : Vec F S2000x256 .bf16) (x1 : Vec F S2x256 .f32) : Vec F S2000x256 .f32 :=
  View.canon [⟨r1_0, k1_pay1 (View.ld x0 r1_0) (View.ld x1 r1_1) (View.ld x1 r1_2)⟩]

theorem cover1_2 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

set_option maxHeartbeats 1000000 in

theorem sound_kernel1 (c : Dev nD) (E : Set ℕ) (i : grid1.Coords) (arg1 : Memref sig .tc .vmem S2000x256 .bf16) (harg1 : arg1.IsWhole) (arg2 : Memref sig .tc .vmem S2x256 .f32) (harg2 : arg2.IsWhole) (arg3 : Memref sig .tc .vmem S2000x256 .f32) (harg3 : arg3.IsWhole)
    (x0 : Vec F S2000x256 .bf16) (x1 : Vec F S2x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__tanh_kern i arg1 harg1 arg2 harg2 arg3 harg3) K := by
  simp only [cc1__tanh_kern_eq_skeleton]; unfold cc1__tanh_kern_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Reg0.lean ====
import proofs.«134973_g77017353552286_cont_9to1c4b_820_20_alg».proof.Proof.Bits.SbA
import proofs.«134973_g77017353552286_cont_9to1c4b_820_20_alg».proof.Proof.Bits.SbB
import proofs.«134973_g77017353552286_cont_9to1c4b_820_20_alg».proof.Proof.Bits.SbC
import proofs.«134973_g77017353552286_cont_9to1c4b_820_20_alg».proof.Proof.Bits.SbD
import proofs.«134973_g77017353552286_cont_9to1c4b_820_20_alg».proof.Proof.Bits.SbE
import proofs.«134973_g77017353552286_cont_9to1c4b_820_20_alg».proof.Proof.Bits.Run
import proofs.«134973_g77017353552286_cont_9to1c4b_820_20_alg».proof.Proof.Bits.Reg1
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The fifty blocks stored in the first phase tile the hidden layer: block i is rows 200·i … 200·i + 199.
theorem cover49 (c : Dev nD) : ∀ y : S10000x256.Idx, ∃ pc ∈ (ph0 V c 49 (by decide)).2.2, y ∈ pc.1.set :=
  View.cover_of_tiledL (s := S10000x256) _ ![200, 256] (by sl_kernel_rfl)

theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  have hN : t.val < 100 := lt_of_lt_of_eq t.isLt N0'
  by_cases hA : t.val = 0
  · exact sound_A V c t hA
  by_cases hB : t.val < 50
  · exact sound_B V c t hA hB
  by_cases hC : t.val = 50
  · exact sound_C V c t hC (cover49 V c)
  by_cases hE : t.val = 99
  · exact sound_E V c t hE
  exact sound_D V c t (by omega) (by omega)

theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

-- After the last point the scratch buffers' contents are forgotten.
theorem hout0 (c : Dev nD) : (dat0 V c).Φ (Fin.last cfg0.N) ⊢ (Pipeline.ΦA spec0 c : sProp 𝕄) := by
  rw [show (dat0 V c).Φ (Fin.last cfg0.N) = PhiS V c (99 + 1) (by rw [N0']) from rfl,
    PhiS_hi V c 99 _ (by decide) (by decide), PhiA0_eq]
  iintro ⟨⟨H0, H1, H2, HR⟩, Hg⟩
  isplitl [H0 H1 H2 HR]
  · isplitl [H0]; · iexists _; iexact H0
    isplitl [H1]; · iexists _; iexact H1
    isplitl [H2]; · iexists _; iexact H2
    iexact HR
  iexact Hg

theorem hyp0 : Hyp0 (F := F) (fun V c => dat0 V c) :=
  ⟨fun V c w => A_eq0 V c w, fun _ _ _ => rfl, fun _ _ _ => rfl, fun _ _ => rfl,
    fun V c => body_obligation0 V c, fun V c => hin0 V c, fun V c => hout0 V c⟩

theorem hyp1 : Hyp1 (F := F) (fun V c => dat1 V c) :=
  ⟨fun V c w => A_eq1 V c w, fun _ _ _ => rfl, fun _ _ _ => rfl, fun _ _ => rfl,
    fun V c => body_obligation1 V c, fun _ _ => .rfl, fun _ _ => .rfl⟩

end Cert.Kernel.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) : Type := Fin a → Fin b → EReal

abbrev Row (b : Nat) : Type := Fin b → EReal

def toMat {a b : Nat} (v : (⟨2, ![a, b]⟩ : Shape).Idx → EReal) : Mat a b := fun r j => v (ix2 r j)

def toRow {b : Nat} (v : (⟨1, ![b]⟩ : Shape).Idx → EReal) : Row b := fun j => v (ix1 j)

def cN : EReal := Ideal.ofBits .f32 0x461C4000#32

def c2 : EReal := Ideal.ofBits .f32 0x40000000#32

def cEps : EReal := Ideal.ofBits .f32 0x3727C5AC#32

def mm {a b c : Nat} (A : Mat a b) (B : Mat b c) : Mat a c := fun r j => ∑ k, A r k * B k j

def colSum {a b : Nat} (A : Mat a b) : Row b := fun j => ∑ r, A r j

def colSumSq {a b : Nat} (A : Mat a b) : Row b := fun j => ∑ r, A r j * A r j

def kMean {d : Nat} (cs b : Row d) : Row d := fun j => Ideal.div (cs j) cN + b j
def kVar {d : Nat} (cs css b : Row d) : Row d := fun j =>
  (Ideal.div (css j + c2 * b j * cs j) cN + b j * b j) - kMean cs b j * kMean cs b j
def kScale {d : Nat} (cs css b g : Row d) : Row d := fun j => g j * Ideal.rsqrt (kVar cs css b j + cEps)
def kShift {d : Nat} (cs css b g be : Row d) : Row d := fun j => (b j - kMean cs b j) * kScale cs css b g j + be j

def kNorm {n d : Nat} (h : Mat n d) (b g be : Row d) : Mat n d := fun r j =>
  h r j * kScale (colSum h) (colSumSq h) b g j + kShift (colSum h) (colSumSq h) b g be j

def kerOut (x : Mat 10000 256) (adj : Mat 10000 10000) (W1 : Mat 256 256) (b1 g1 be1 : Row 256)
    (W2 : Mat 256 256) (b2 g2 be2 : Row 256) : Mat 10000 256 :=
  fun r j => Ideal.tanh (kNorm (mm adj (mm (kNorm (mm adj (mm x W1)) b1 g1 be1) W2)) b2 g2 be2 r j)

def rMean {n d : Nat} (h : Mat n d) : Row d := fun j => Ideal.div (∑ r, h r j) cN
def rVar {n d : Nat} (h : Mat n d) : Row d := fun j =>
  Ideal.div (∑ r, (h r j - rMean h j) * (h r j - rMean h j)) cN
def rNorm {n d : Nat} (h : Mat n d) (g be : Row d) : Mat n d := fun r j =>
  Ideal.div (h r j - rMean h j) (Ideal.sqrt (rVar h j + cEps)) * g j + be j

def biased {n d : Nat} (h : Mat n d) (b : Row d) : Mat n d := fun r j => h r j + b j

def refOut (x : Mat 10000 256) (adj : Mat 10000 10000) (W1 : Mat 256 256) (b1 g1 be1 : Row 256)
    (W2 : Mat 256 256) (b2 g2 be2 : Row 256) : Mat 10000 256 :=
  fun r j => Ideal.tanh (rNorm (biased (mm adj (mm (rNorm (biased (mm adj (mm x W1)) b1) g1 be1) W2)) b2) g2 be2 r j)

def FinM {a b : Nat} (A : Mat a b) : Prop := ∀ r j, A r j ≠ ⊤ ∧ A r j ≠ ⊥
def FinR {b : Nat} (v : Row b) : Prop := ∀ j, v j ≠ ⊤ ∧ v j ≠ ⊥

end Cert.Spec

end
-- ==== Proof.Partial.lean ====
import proofs.«134973_g77017353552286_cont_9to1c4b_820_20_alg».proof.Proof.Spec
import Idealize.ShloMosaic.Lib.FinSumWindow

noncomputable section

open scoped BigOperators

namespace Cert.Spec

def psum (n : Nat) (f : Fin 10000 → EReal) : EReal := ∑ r : Fin 10000, if r.val < n then f r else 0

theorem psum_zero (f : Fin 10000 → EReal) : psum 0 f = 0 := by
  simp [psum]

theorem psum_full (f : Fin 10000 → EReal) : psum 10000 f = ∑ r, f r :=
  Finset.sum_congr rfl fun r _ => if_pos r.isLt

def blockRow (i : Fin 50) (a : Fin 200) : Fin 10000 := ⟨200 * i.val + a.val, by omega⟩

theorem blockRow_val (i : Fin 50) (a : Fin 200) : (blockRow i a).val = 200 * i.val + a.val := rfl

theorem exists_blockRow (r : Fin 10000) : ∃ (i : Fin 50) (a : Fin 200), r = blockRow i a :=
  ⟨⟨r.val / 200, by omega⟩, ⟨r.val % 200, by omega⟩, Fin.ext (by rw [blockRow_val]; simp only []; omega)⟩

-- A sum that vanishes off block `i` is the sum over the block's 200 rows.
theorem sum_block_indicator (i : Fin 50) (f : Fin 10000 → EReal) :
    (∑ r : Fin 10000, if 200 * i.val ≤ r.val ∧ r.val < 200 * i.val + 200 then f r else 0)
      = ∑ a : Fin 200, f (blockRow i a) := by
  have hi := i.isLt
  refine (Idealize.ShloMosaic.FinSumWindow.sum_window (W := 200) (200 * i.val) (by omega) _
    fun _ h => if_neg h).trans ?_
  exact Finset.sum_congr rfl fun a _ => if_pos ⟨Nat.le_add_right _ _, Nat.add_lt_add_left a.isLt _⟩

theorem psum_block (i : Fin 50) (f : Fin 10000 → EReal) :
    psum (200 * (i.val + 1)) f = psum (200 * i.val) f + ∑ a : Fin 200, f (blockRow i a) := by
  have split : ∀ r : Fin 10000, (if r.val < 200 * (i.val + 1) then f r else 0)
      = (if r.val < 200 * i.val then f r else 0)
        + (if 200 * i.val ≤ r.val ∧ r.val < 200 * i.val + 200 then f r else 0) := by
    intro r
    by_cases h1 : r.val < 200 * i.val
    · rw [if_pos h1, if_pos (by omega), if_neg (by omega), add_zero]
    · by_cases h2 : r.val < 200 * (i.val + 1)
      · rw [if_neg h1, if_pos h2, if_pos (by omega), zero_add]
      · rw [if_neg h1, if_neg h2, if_neg (by omega), add_zero]
  unfold psum
  rw [Finset.sum_congr rfl (fun r _ => split r), Finset.sum_add_distrib, sum_block_indicator]

theorem psum_first (f : Fin 10000 → EReal) : psum 200 f = ∑ a : Fin 200, f (blockRow 0 a) := by
  have h := psum_block 0 f
  simpa [psum_zero] using h

end Cert.Spec

end
-- ==== Proof.ValSpec.lean ====
import proofs.«134973_g77017353552286_cont_9to1c4b_820_20_alg».proof.Proof.Reg0a
import proofs.«134973_g77017353552286_cont_9to1c4b_820_20_alg».proof.Proof.Partial

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b)) (c : Dev nD)

noncomputable def Xm : Mat 10000 256 := toMat (V c main_arg0)
noncomputable def ADJ : Mat 10000 10000 := toMat (V c main_arg1)
noncomputable def W1m : Mat 256 256 := toMat (V c main_arg2)
noncomputable def W2m : Mat 256 256 := toMat (V c main_arg6)
noncomputable def B1 : Row 256 := fun j => V c main_v0 (ix2 (0 : Fin 1) j)
noncomputable def B2 : Row 256 := fun j => V c main_v1 (ix2 (0 : Fin 1) j)
noncomputable def G1 : Row 256 := fun j => V c main_v2 (ix2 (0 : Fin 1) j)
noncomputable def G2 : Row 256 := fun j => V c main_v3 (ix2 (0 : Fin 1) j)
noncomputable def BE1 : Row 256 := fun j => V c main_v4 (ix2 (0 : Fin 1) j)
noncomputable def BE2 : Row 256 := fun j => V c main_v5 (ix2 (0 : Fin 1) j)
noncomputable def S1 : Mat 10000 256 := mm (Xm V c) (W1m V c)
noncomputable def H1 : Mat 10000 256 := mm (ADJ V c) (S1 V c)
noncomputable def A1 : Mat 10000 256 := kNorm (H1 V c) (B1 V c) (G1 V c) (BE1 V c)
noncomputable def S2 : Mat 10000 256 := mm (A1 V c) (W2m V c)
noncomputable def H2 : Mat 10000 256 := mm (ADJ V c) (S2 V c)

/-- A quantity that starts at block 0's sum and grows by one block's sum a step ends at the sum over all rows. -/
theorem sum_of_blocks (f : Fin 10000 → EReal) (s : (n : ℕ) → n < 50 → EReal)
    (h0 : s 0 (by decide) = ∑ a, f (blockRow 0 a))
    (hs : ∀ n (hn : n + 1 < 50), s (n + 1) hn = s n (Nat.lt_of_succ_lt hn) + ∑ a, f (blockRow ⟨n + 1, hn⟩ a)) :
    s 49 (by decide) = ∑ r, f r := by
  have h : ∀ n hn, s n hn = psum (200 * (n + 1)) f := fun n => by
    induction n with
    | zero => exact fun _ => h0.trans (psum_first f).symm
    | succ n ih => exact fun hn => (hs n hn).trans ((congrArg (· + _) (ih _)).trans (psum_block ⟨n + 1, hn⟩ f).symm)
  exact (h 49 _).trans (psum_full f)

end Cert.KernelIdeal.Hand

end
-- ==== Proof.InputsIdeal.lean ====
import proofs.«134973_g77017353552286_cont_9to1c4b_820_20_alg».proof.Proof.ValSpec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b)) (c : Dev nD)

theorem in0_idx : ∀ t : Fin cfg0.N, win0_0.index t 0 = t.val % 50 ∧ win0_0.index t 1 = 0
    ∧ ∀ w : Fin cfg0.W, 0 < w.val → w.val ≠ 10 → ∀ a, (cfg0.win w).index t a = 0 :=
  (by decide +kernel : ∀ t : Fin grid0.N, _)

theorem iblk0_0_apply (t : Fin cfg0.N) (a : Fin 200) (k : Fin 10000) :
    iblk0 V c 0 t (ix2 a k) = ADJ V c (blockRow ⟨t.val % 50, Nat.mod_lt _ (by decide)⟩ a) k := by
  obtain ⟨e0, e1, -⟩ := in0_idx t
  refine congrArg (V c main_arg1) (Shape.idx_ext₂ ?_ ?_)
  · show win0_0.index t 0 * 200 + 1 * a.val = 200 * (t.val % 50) + a.val; omega
  · show win0_0.index t 1 * 10000 + 1 * k.val = k.val; omega

abbrev adjBlk (t : Fin cfg0.N) : Vec Ideal S200x10000 .f32 := iblk0 V c 0 t

/-- The rows of ADJ · M that a block of ADJ's rows gives. -/
theorem blockProd_at (t : Fin cfg0.N) (S : Vec Ideal S10000x256 .f32) (M : Mat 10000 256)
    (hS : ∀ r j, S (ix2 r j) = M r j) (i : Fin 50) (hi : t.val % 50 = i.val) (a : Fin 200) (j : Fin 256) :
    ∑ k : Fin 10000, adjBlk V c t (ix2 a k) * S (ix2 k j) = mm (ADJ V c) M (blockRow i a) j := by
  rw [← (Fin.ext hi : (⟨t.val % 50, Nat.mod_lt _ (by decide)⟩ : Fin 50) = i)]
  exact Finset.sum_congr rfl fun k _ => by rw [show adjBlk V c t (ix2 a k) = _ from iblk0_0_apply V c t a k, hS]

theorem emb0 {w : Fin cfg0.W} (t : Fin cfg0.N) (y : ((cfg0.win w).xblock (grid0.coords t)).Idx)
    (a : Fin (cfg0.win w).shape.rank) (h0 : 0 < w.val := by decide) (h9 : w.val ≠ 10 := by decide) :
    (((cfg0.win w).rect t).emb y a : ℕ) = y a :=
  (cfg0.win w).rect_emb_val_of_index_zero t a ((in0_idx t).2.2 w h0 h9 a) y

theorem iblk0_1 (t : Fin cfg0.N) : iblk0 V c 1 t = V c main_arg0 := funext fun y => congrArg (V c main_arg0) (funext fun a => Fin.ext (emb0 (w := 1) t y a))
theorem iblk0_2 (t : Fin cfg0.N) : iblk0 V c 2 t = V c main_arg2 := funext fun y => congrArg (V c main_arg2) (funext fun a => Fin.ext (emb0 (w := 2) t y a))
theorem iblk0_3 (t : Fin cfg0.N) : iblk0 V c 3 t = V c main_arg6 := funext fun y => congrArg (V c main_arg6) (funext fun a => Fin.ext (emb0 (w := 3) t y a))
theorem iblk0_4 (t : Fin cfg0.N) : iblk0 V c 4 t = V c main_v0 := funext fun y => congrArg (V c main_v0) (funext fun a => Fin.ext (emb0 (w := 4) t y a))
theorem iblk0_5 (t : Fin cfg0.N) : iblk0 V c 5 t = V c main_v1 := funext fun y => congrArg (V c main_v1) (funext fun a => Fin.ext (emb0 (w := 5) t y a))
theorem iblk0_6 (t : Fin cfg0.N) : iblk0 V c 6 t = V c main_v2 := funext fun y => congrArg (V c main_v2) (funext fun a => Fin.ext (emb0 (w := 6) t y a))
theorem iblk0_7 (t : Fin cfg0.N) : iblk0 V c 7 t = V c main_v3 := funext fun y => congrArg (V c main_v3) (funext fun a => Fin.ext (emb0 (w := 7) t y a))
theorem iblk0_8 (t : Fin cfg0.N) : iblk0 V c 8 t = V c main_v4 := funext fun y => congrArg (V c main_v4) (funext fun a => Fin.ext (emb0 (w := 8) t y a))
theorem iblk0_9 (t : Fin cfg0.N) : iblk0 V c 9 t = V c main_v5 := funext fun y => congrArg (V c main_v5) (funext fun a => Fin.ext (emb0 (w := 9) t y a))

end Cert.KernelIdeal.Hand

end
-- ==== Proof.Arr0.lean ====
import proofs.«134973_g77017353552286_cont_9to1c4b_820_20_alg».proof.Proof.InputsIdeal

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b)) (c : Dev nD)

theorem arr0_facts : ∀ t : Fin cfg0.N, ((cfg0.win 10).flush t = true ↔ 50 ≤ t.val)
    ∧ (50 ≤ t.val → win0_10.index t 0 = t.val - 50) ∧ win0_10.index t 1 = 0 :=
  (by decide +kernel : ∀ t : Fin grid0.N, _)

theorem ph1_fst_congr {n n' : ℕ} (h : n < 50) (h' : n' < 50) (e : n = n') {x x' : S200x256.Idx} (ex : x = x') :
    (ph1 V c n h).1 x = (ph1 V c n' h').1 x' := by
  subst e; subst ex; rfl

/-- Row r of the output array is row r mod 200 of the output block of position r / 200. -/
noncomputable def arr0_G10 : S10000x256.Idx → Elt Ideal .bf16 := fun idx =>
  (ph1 V c ((idx 0).val / 200) (by have h : (idx 0).val < 10000 := (idx 0).isLt; omega)).1
    (ix2 ⟨(idx 0).val % 200, Nat.mod_lt _ (by decide)⟩ (idx 1))

theorem arr0_flushed10 (t : Fin cfg0.N) (hf : (cfg0.win 10).flush t = true) :
    (dat0 V c).flushed 10 t = ((cfg0.win 10).blk t).view.read (Elt Ideal) (arr0_G10 V c) := by
  obtain ⟨hfl, hidx, e1⟩ := arr0_facts t
  have h50 : 50 ≤ t.val := hfl.mp hf
  have e0 := hidx h50
  show (cfg0.win 10).cut (grid0.coords t) ((dat0 V c).after 10 t) = _
  rw [after0_10]
  unfold out10At
  rw [dif_pos h50]
  refine funext fun (y : S200x256.Idx) => ?_
  obtain ⟨a, j, rfl⟩ : ∃ (a : Fin 200) (j : Fin 256), y = ix2 a j := ⟨y 0, y 1, eq_ix2 y⟩
  show (ph1 V c (t.val - 50) _).1 (ix2 a j) = arr0_G10 V c (((cfg0.win 10).blk t).view.emb (ix2 a j))
  unfold arr0_G10
  have ha : a.val < 200 := a.isLt
  refine ph1_fst_congr V c _ _ ?_ (Shape.idx_ext₂ ?_ ?_)
  · show t.val - 50 = (win0_10.index t 0 * 200 + 1 * a.val) / 200; omega
  · show a.val = (win0_10.index t 0 * 200 + 1 * a.val) % 200; omega
  · show j.val = win0_10.index t 1 * 256 + 1 * j.val; omega

theorem arr0_cover10 (i : S10000x256.Idx) :
    ∃ t : Fin cfg0.N, (cfg0.win 10).flush t = true ∧ i ∈ ((cfg0.win 10).blk t).view.set := by
  have hi0 : (i 0).val < 10000 := (i 0).isLt
  have hi1 : (i 1).val < 256 := (i 1).isLt
  let t : Fin cfg0.N := ⟨50 + (i 0).val / 200, by rw [N0']; omega⟩
  obtain ⟨hfl, hidx, e1⟩ := arr0_facts t
  have ht : t.val = 50 + (i 0).val / 200 := rfl
  have e0 := hidx (by omega)
  refine ⟨t, hfl.mpr (by omega), ?_⟩
  show i ∈ ((View.whole main_v6_0).slice (win0_10.rect t)).set
  rw [View.set_slice_whole, Rect.mem_set_unit]
  exact Fin.forall_fin_two.2 ⟨by show win0_10.index t 0 * 200 ≤ (i 0).val ∧ (i 0).val < win0_10.index t 0 * 200 + 200; omega,
    by show win0_10.index t 1 * 256 ≤ (i 1).val ∧ (i 1).val < win0_10.index t 1 * 256 + 256; omega⟩

theorem arr0_10 (i : Fin 50) (a : Fin 200) (j : Fin 256) :
    ((dat0 V c).arrAt 10 cfg0.N) (ix2 (blockRow i a) j) = (ph1 V c i.val i.isLt).1 (ix2 a j) := by
  rw [(dat0 V c).arrAt_eq_of_cover 10 (arr0_G10 V c) (arr0_flushed10 V c) arr0_cover10]
  unfold arr0_G10
  have hi : i.val < 50 := i.isLt
  have ha : a.val < 200 := a.isLt
  refine ph1_fst_congr V c _ _ ?_ (Shape.idx_ext₂ ?_ rfl)
  · show (200 * i.val + a.val) / 200 = i.val; omega
  · show (200 * i.val + a.val) % 200 = a.val; omega

theorem arr0_flushed11 (t : Fin cfg0.N) (hf : (cfg0.win 11).flush t = true) :
    (dat0 V c).flushed 11 t = ((cfg0.win 11).blk t).view.read (Elt Ideal) (out11At V c) := by
  show (cfg0.win 11).cut (grid0.coords t) ((dat0 V c).after 11 t) = _
  rw [after0_11]
  exact funext fun y => congrArg (out11At V c) (funext fun a => Fin.ext (emb0 (w := 11) t y a).symm)

theorem arr0_cover11 (i : S2x256.Idx) :
    ∃ t : Fin cfg0.N, (cfg0.win 11).flush t = true ∧ i ∈ ((cfg0.win 11).blk t).view.set := by
  have hi0 : (i 0).val < 2 := (i 0).isLt
  have hi1 : (i 1).val < 256 := (i 1).isLt
  let t : Fin cfg0.N := ⟨99, by rw [N0']; decide⟩
  have e := (in0_idx t).2.2 11 (by decide) (by decide)
  refine ⟨t, (flush0_11 t).mpr rfl, ?_⟩
  show i ∈ ((View.whole main_v6_1).slice (win0_11.rect t)).set
  rw [View.set_slice_whole, Rect.mem_set_unit]
  exact Fin.forall_fin_two.2 ⟨by show (cfg0.win 11).index t 0 * 2 ≤ (i 0).val ∧ (i 0).val < (cfg0.win 11).index t 0 * 2 + 2; rw [e 0]; omega,
    by show (cfg0.win 11).index t 1 * 256 ≤ (i 1).val ∧ (i 1).val < (cfg0.win 11).index t 1 * 256 + 256; rw [e 1]; omega⟩

theorem arr0_11 : (dat0 V c).arrAt 11 cfg0.N = (ph1 V c 49 (by decide)).2.1 :=
  (dat0 V c).arrAt_eq_of_cover 11 (out11At V c) (arr0_flushed11 V c) arr0_cover11

end Cert.KernelIdeal.Hand

end
-- ==== Proof.PayA.lean ====
import proofs.«134973_g77017353552286_cont_9to1c4b_820_20_alg».proof.Proof.Gen.KernelIdeal.Skeleton
import proofs.«134973_g77017353552286_cont_9to1c4b_820_20_alg».proof.Proof.Spec
import Idealize.ShloMosaic.Lib.ValueLayout
import Idealize.ShloMosaic.Lib.Pipeline.Value
import Idealize.ShloMosaic.PureOps.Ideal.Laws

noncomputable section

open scoped BigOperators

namespace Cert.KernelIdeal.PayIdeal

open Idealize.ShloMosaic Idealize.ShloMosaic.ValueIdx Cert.KernelIdeal Cert.KernelIdeal.Gen

-- An m×k by k×n product into a zero accumulator is, at (a, b), the sum over the contracted coordinate.
theorem matmul_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  congr 2 <;> (funext ax; apply Fin.ext)
  · match ax with
    | ⟨0, _⟩ => simp [DotDims.lhsIdx]; rfl
    | ⟨1, _⟩ => simp [DotDims.lhsIdx]; exact hc
  · match ax with
    | ⟨0, _⟩ => simp [DotDims.rhsIdx]; exact hc
    | ⟨1, _⟩ => simp [DotDims.rhsIdx]; rfl

section

variable (A : FVec Ideal S2000x256 .f32) (B : FVec Ideal S256x256 .f32) (r : Fin 2000) (j : Fin 256)

theorem castMatmul_apply :
    shapeCast S2000x256 (matmul dot_S2000x256_S256x256_S2000x256_1_0_0_1_n_n none A B
        (constant (F := Ideal) S2000x256 .f32 0x00000000#32)) shapeCasts_S2000x256_S2000x256 (ix2 r j)
      = ∑ k : Fin 256, A (ix2 r k) * B (ix2 k j) :=
  (congrFun (shapeCast_self _ _) _).trans (matmul_plain_apply _ none A B r j)

end

-- The sum over the 200 rows of a block, at lane j.
theorem laneSum_apply (src : FVec Ideal S200x256 .f32) (j : Fin 256) :
    multiReduction .add [0] S256 src 0x00000000#32 reduces_S200x256_S256 (.inl rfl) rfl (ix1 j)
      = ∑ r : Fin 200, src (ix2 r j) := by
  refine (Ideal.multiReduction_add_single src 0x00000000#32 reduces_S200x256_S256 (.inl rfl) rfl (ix1 j)).trans ?_
  refine Finset.sum_congr rfl fun r _ => ?_
  congr 1
  funext a
  refine Fin.ext ?_
  match a with
  | ⟨0, _⟩ => rfl
  | ⟨1, _⟩ => rfl

section

variable (v10 : Vec Ideal S200x10000 .f32) (v11 : Vec Ideal S10000x256 .f32) (v : Vec Ideal S1x256 .f32) (a : Fin 200)
  (j : Fin 256)

theorem k0_pay20_apply : k0_pay20 v10 v11 (ix2 a j) = ∑ k : Fin 10000, v10 (ix2 a k) * v11 (ix2 k j) :=
  matmul_plain_apply _ none v10 v11 a j

theorem k0_pay23_apply : k0_pay23 v10 v11 (ix2 a j) = k0_pay20 v10 v11 (ix2 a j) := by
  unfold k0_pay23
  simp only [shapeCast_self]
  rfl

theorem k0_pay24_apply : k0_pay24 v10 v11 (ix2 a j) = ∑ k : Fin 10000, v10 (ix2 a k) * v11 (ix2 k j) :=
  k0_pay20_apply v10 v11 a j

theorem k0_pay21_apply :
    k0_pay21 v10 v11 (ix2 (0 : Fin 1) j) = ∑ r : Fin 200, ∑ k : Fin 10000, v10 (ix2 r k) * v11 (ix2 k j) :=
  ((shapeCast_a_1a_apply _ shapeCasts_S256_S1x256 0 j).trans (laneSum_apply _ j)).trans
    (Finset.sum_congr rfl fun r _ => k0_pay20_apply v10 v11 r j)

theorem k0_pay22_apply :
    k0_pay22 v10 v11 (ix2 (0 : Fin 1) j)
      = ∑ r : Fin 200, (∑ k : Fin 10000, v10 (ix2 r k) * v11 (ix2 k j)) * ∑ k : Fin 10000, v10 (ix2 r k) * v11 (ix2 k j) :=
  ((shapeCast_a_1a_apply _ shapeCasts_S256_S1x256 0 j).trans (laneSum_apply _ j)).trans
    (Finset.sum_congr rfl fun r _ => by
      show k0_pay20 v10 v11 (ix2 r j) * k0_pay20 v10 v11 (ix2 r j) = _; rw [k0_pay20_apply])

theorem k0_pay25_apply :
    k0_pay25 v10 v11 (ix2 (0 : Fin 1) j) = ∑ r : Fin 200, ∑ k : Fin 10000, v10 (ix2 r k) * v11 (ix2 k j) :=
  (congrFun (shapeCast_self _ _) _).trans (k0_pay21_apply v10 v11 j)

theorem k0_pay26_apply :
    k0_pay26 v10 v11 (ix2 (0 : Fin 1) j)
      = ∑ r : Fin 200, (∑ k : Fin 10000, v10 (ix2 r k) * v11 (ix2 k j)) * ∑ k : Fin 10000, v10 (ix2 r k) * v11 (ix2 k j) :=
  (congrFun (shapeCast_self _ _) _).trans (k0_pay22_apply v10 v11 j)

theorem k0_pay27_apply :
    k0_pay27 v10 v11 v (ix2 (0 : Fin 1) j)
      = v (ix2 (0 : Fin 1) j) + ∑ r : Fin 200, ∑ k : Fin 10000, v10 (ix2 r k) * v11 (ix2 k j) := by
  unfold k0_pay27
  simp only [shapeCast_self]
  rw [addf_apply, k0_pay21_apply]

theorem k0_pay28_apply :
    k0_pay28 v10 v11 v (ix2 (0 : Fin 1) j)
      = v (ix2 (0 : Fin 1) j)
        + ∑ r : Fin 200, (∑ k : Fin 10000, v10 (ix2 r k) * v11 (ix2 k j)) * ∑ k : Fin 10000, v10 (ix2 r k) * v11 (ix2 k j) := by
  unfold k0_pay28
  simp only [shapeCast_self]
  rw [addf_apply, k0_pay22_apply]

end

theorem k1_pay1_apply (v0 : Vec Ideal S2000x256 .bf16) (v3 : Vec Ideal S1x256 .f32) (v7 : Vec Ideal S1x256 .f32)
    (r : Fin 2000) (j : Fin 256) :
    k1_pay1 v0 v3 v7 (ix2 r j)
      = Ideal.tanh (v0 (ix2 r j) * v3 (ix2 (0 : Fin 1) j) + v7 (ix2 (0 : Fin 1) j)) := by
  unfold k1_pay1
  simp only [shapeCast_self]
  show Ideal.tanh (_ * broadcastTo S2000x256 v3 broadcasts_S1x256_S2000x256 (ix2 r j)
    + broadcastTo S2000x256 v7 broadcasts_S1x256_S2000x256 (ix2 r j)) = _
  rw [broadcastTo_1b_ab_apply, broadcastTo_1b_ab_apply]
  rfl

end Cert.KernelIdeal.PayIdeal

end
-- ==== Proof.Arr1.lean ====
import proofs.«134973_g77017353552286_cont_9to1c4b_820_20_alg».proof.Proof.Reg1
import proofs.«134973_g77017353552286_cont_9to1c4b_820_20_alg».proof.Proof.PayA

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

abbrev arr1_act : S10000x256.Idx → EReal := V c main_v6_0
abbrev arr1_tab : S2x256.Idx → EReal := V c main_v6_1

noncomputable def arr1_G : S10000x256.Idx → EReal := fun idx =>
  Ideal.tanh (arr1_act V c idx * arr1_tab V c (ix2 (0 : Fin 2) (idx 1)) + arr1_tab V c (ix2 (1 : Fin 2) (idx 1)))

theorem arr1_hz : (![0, 0] : Fin 2 → Nat) = fun _ => 0 := funext fun a => by fin_cases a <;> rfl

theorem arr1_idx : ∀ t : Fin cfg1.N, win1_1.index t 0 = 0 ∧ win1_1.index t 1 = 0
    ∧ win1_2.index t 0 = t.val ∧ win1_2.index t 1 = 0 :=
  (by decide +kernel : ∀ t : Fin grid1.N, _)

theorem arr1_flushed (t : Fin cfg1.N) :
    (dat1 V c).flushed 2 t = ((cfg1.win 2).blk t).view.read (Elt Ideal) (arr1_G V c) := by
  show (cfg1.win 2).cut (grid1.coords t) ((dat1 V c).after 2 t) = _
  rw [after1_2]
  unfold out1_2
  rw [View.canon_unit_zero arr1_hz]
  simp only [View.ld_unit_zero (S := S2000x256) arr1_hz]
  obtain ⟨e0, e1, e2, e3⟩ := arr1_idx t
  refine funext fun (j : S2000x256.Idx) => ?_
  obtain ⟨r, q, rfl⟩ : ∃ (r : Fin 2000) (q : Fin 256), j = ix2 r q := ⟨j 0, j 1, eq_ix2 j⟩
  refine (k1_pay1_apply ..).trans (congrArg Ideal.tanh (congrArg₂ (· + ·) (congrArg₂ (· * ·) rfl
    (congrArg (V c main_v6_1) (Shape.idx_ext₂ ?_ ?_))) (congrArg (V c main_v6_1) (Shape.idx_ext₂ ?_ ?_))))
  · show win1_1.index t 0 * 2 + 1 * (0 + 1 * 0) = 0; omega
  · show win1_1.index t 1 * 256 + 1 * (0 + 1 * q.val) = win1_2.index t 1 * 256 + 1 * q.val; omega
  · show win1_1.index t 0 * 2 + 1 * (1 + 1 * 0) = 1; omega
  · show win1_1.index t 1 * 256 + 1 * (0 + 1 * q.val) = win1_2.index t 1 * 256 + 1 * q.val; omega

theorem arr1_cover (i : S10000x256.Idx) :
    ∃ t : Fin cfg1.N, (cfg1.win 2).flush t = true ∧ i ∈ ((cfg1.win 2).blk t).view.set := by
  have hi0 : (i 0).val < 10000 := (i 0).isLt
  have hi1 : (i 1).val < 256 := (i 1).isLt
  let t : Fin cfg1.N := ⟨(i 0).val / 2000, by rw [show cfg1.N = 5 from N_1]; omega⟩
  obtain ⟨-, -, e2, e3⟩ := arr1_idx t
  have ht : t.val = (i 0).val / 2000 := rfl
  refine ⟨t, flush1_2 t, ?_⟩
  show i ∈ ((View.whole main_v7).slice (win1_2.rect t)).set
  rw [View.set_slice_whole, Rect.mem_set_unit]
  exact Fin.forall_fin_two.2 ⟨by show win1_2.index t 0 * 2000 ≤ (i 0).val ∧ (i 0).val < win1_2.index t 0 * 2000 + 2000; omega,
    by show win1_2.index t 1 * 256 ≤ (i 1).val ∧ (i 1).val < win1_2.index t 1 * 256 + 256; omega⟩

theorem arr1_final : (dat1 (F := Ideal) V c).arrAt 2 cfg1.N = arr1_G V c :=
  (dat1 V c).arrAt_eq_of_cover 2 (arr1_G V c) (fun t _ => arr1_flushed V c t) arr1_cover

end Cert.KernelIdeal.Hand

end
-- ==== Proof.StateIdealA.lean ====
import proofs.«134973_g77017353552286_cont_9to1c4b_820_20_alg».proof.Proof.StateFns
import proofs.«134973_g77017353552286_cont_9to1c4b_820_20_alg».proof.Proof.PayA
import Idealize.ShloMosaic.Lib.WritesUnit

set_option maxRecDepth 16384

noncomputable section

open scoped BigOperators

namespace Cert.KernelIdeal.StateIdeal

open Idealize.ShloMosaic Idealize.ShloMosaic.ValueIdx Idealize.ShloMosaic.Tactic
open Cert.KernelIdeal Cert.KernelIdeal.Gen Cert.KernelIdeal.Hand Cert.KernelIdeal.PayIdeal

section Slab

variable {sig' : RefSig} {κ : Kind} {sp : Space} {e : EltTy} {Val : EltTy → Type} {R C W : ℕ}
  (v : View sig' κ sp (⟨2, ![R, C]⟩ : Shape) e) (f : v.ty.Contents Val) (o : ℕ)
  (inb : ∀ a : Fin 2, (![o, 0] : Fin 2 → ℕ) a + (![W, C] : Fin 2 → ℕ) a ≤ (![R, C] : Fin 2 → ℕ) a)
  (w : (⟨2, ![W, C]⟩ : Shape).Idx → Val e) (L : List (View.Piece Val (⟨2, ![R, C]⟩ : Shape) e)) (r : Fin R) (j : Fin C)

theorem read_slab_of_mem (h : o ≤ r.val ∧ r.val < o + W) :
    v.read Val (v.writes Val f ((⟨Rect.unit (s := ⟨2, ![R, C]⟩) ![o, 0] ![W, C] inb, w⟩ : View.Piece Val _ e) :: L)) (ix2 r j)
      = w (ix2 ⟨r.val - o, by omega⟩ j) :=
  View.read_writes_cons_rows_of_mem v f inb w L (ix2 r j) (ix2 ⟨r.val - o, by omega⟩ j) rfl
    (by show r.val = o + (r.val - o); omega) rfl

theorem read_slab_of_not_mem (h : r.val < o) :
    v.read Val (v.writes Val f ((⟨Rect.unit (s := ⟨2, ![R, C]⟩) ![o, 0] ![W, C] inb, w⟩ : View.Piece Val _ e) :: L)) (ix2 r j)
      = v.read Val (v.writes Val f L) (ix2 r j) :=
  View.read_writes_cons_rows_of_not_mem (o := o) (W := W) v f inb w L (ix2 r j) rfl rfl (.inl h)

-- A load of rows o, o+1, ... of an array reads, at (a, j), the array at (o + a, j).
theorem ld_rows_apply (X : (⟨2, ![R, C]⟩ : Shape).Idx → Val e) (a : Fin W) (hr : r.val = o + a.val) :
    View.ld X (Rect.unit (s := ⟨2, ![R, C]⟩) ![o, 0] ![W, C] inb) (ix2 a j) = X (ix2 r j) := by
  refine congrArg X (funext fun d => Fin.ext ?_)
  match d with
  | ⟨0, _⟩ => show o + 1 * a.val = r.val; omega
  | ⟨1, _⟩ => show 0 + 1 * j.val = j.val; omega

end Slab

theorem slab_prod (x1 : Vec Ideal S10000x256 .f32) (x2 : Vec Ideal S256x256 .f32) (o : ℕ)
    (inb : ∀ a : Fin 2, (![o, 0] : Fin 2 → ℕ) a + (![2000, 256] : Fin 2 → ℕ) a ≤ (![10000, 256] : Fin 2 → ℕ) a)
    (r : Fin 10000) (j : Fin 256) (h : o ≤ r.val ∧ r.val < o + 2000) :
    (∑ k : Fin 256, View.ld x1 (Rect.unit (s := ⟨2, ![10000, 256]⟩) ![o, 0] ![2000, 256] inb) (ix2 ⟨r.val - o, by omega⟩ k)
        * x2 (ix2 k j))
      = ∑ k : Fin 256, x1 (ix2 r k) * x2 (ix2 k j) :=
  Finset.sum_congr rfl fun k _ => by
    rw [ld_rows_apply o inb r k x1 _ (by show r.val = o + (r.val - o); omega)]

theorem zero2 : (![0, 0] : Fin 2 → ℕ) = fun _ => 0 := by
  funext a; match a with | ⟨0, _⟩ => rfl | ⟨1, _⟩ => rfl

section Rows

variable {sig' : RefSig} {κ : Kind} {sp : Space} {e : EltTy} {Val : EltTy → Type} {C : ℕ}
  (v : View sig' κ sp (⟨2, ![2, C]⟩ : Shape) e) (f : v.ty.Contents Val)
  (inb1 : ∀ a : Fin 2, (![1, 0] : Fin 2 → ℕ) a + (![1, C] : Fin 2 → ℕ) a ≤ (![2, C] : Fin 2 → ℕ) a)
  (inb0 : ∀ a : Fin 2, (![0, 0] : Fin 2 → ℕ) a + (![1, C] : Fin 2 → ℕ) a ≤ (![2, C] : Fin 2 → ℕ) a)
  (w1 w0 : (⟨2, ![1, C]⟩ : Shape).Idx → Val e) (j : Fin C)

theorem read_row0 :
    v.read Val (v.writes Val f [(⟨Rect.unit (s := ⟨2, ![2, C]⟩) ![1, 0] ![1, C] inb1, w1⟩ : View.Piece Val _ e),
      ⟨Rect.unit (s := ⟨2, ![2, C]⟩) ![0, 0] ![1, C] inb0, w0⟩]) (ix2 (0 : Fin 2) j) = w0 (ix2 (0 : Fin 1) j) :=
  (View.read_writes_cons_rows_of_not_mem (o := 1) (W := 1) v f inb1 w1 _ (ix2 (0 : Fin 2) j) rfl rfl
    (Or.inl Nat.zero_lt_one)).trans
    (View.read_writes_cons_rows_of_mem (o := 0) v f inb0 w0 [] (ix2 (0 : Fin 2) j) (ix2 (0 : Fin 1) j) rfl rfl rfl)

theorem read_row1 :
    v.read Val (v.writes Val f [(⟨Rect.unit (s := ⟨2, ![2, C]⟩) ![1, 0] ![1, C] inb1, w1⟩ : View.Piece Val _ e),
      ⟨Rect.unit (s := ⟨2, ![2, C]⟩) ![0, 0] ![1, C] inb0, w0⟩]) (ix2 (1 : Fin 2) j) = w1 (ix2 (0 : Fin 1) j) :=
  View.read_writes_cons_rows_of_mem (o := 1) v f inb1 w1 _ (ix2 (1 : Fin 2) j) (ix2 (0 : Fin 1) j) rfl rfl rfl

end Rows

section Hidden

variable {sig' : RefSig} {κ : Kind} {sp : Space} {e : EltTy} {Val : EltTy → Type}
  (v : View sig' κ sp S10000x256 e) (f : v.ty.Contents Val) (off : Fin 2 → ℕ) (n : ℕ)
  (inb : ∀ a : Fin 2, off a + S200x256.size a ≤ S10000x256.size a) (w : S200x256.Idx → Val e)
  (L : List (View.Piece Val S10000x256 e)) (r : Fin 10000) (j : Fin 256) (hoff : off = ![200 * n, 0])
include hoff

theorem hidden_cons_of_mem (h : 200 * n ≤ r.val ∧ r.val < 200 * (n + 1)) :
    v.read Val (v.writes Val f ((⟨Rect.unit (s := S10000x256) off S200x256.size inb, w⟩ : View.Piece Val _ e) :: L)) (ix2 r j)
      = w (ix2 ⟨r.val - 200 * n, by omega⟩ j) :=
  View.read_writes_cons_rows_of_mem v f inb w L (ix2 r j) (ix2 ⟨r.val - 200 * n, by omega⟩ j) hoff
    (by show r.val = 200 * n + (r.val - 200 * n); omega) rfl

theorem hidden_cons_of_not_mem (h : r.val < 200 * n ∨ 200 * (n + 1) ≤ r.val) :
    v.read Val (v.writes Val f ((⟨Rect.unit (s := S10000x256) off S200x256.size inb, w⟩ : View.Piece Val _ e) :: L)) (ix2 r j)
      = v.read Val (v.writes Val f L) (ix2 r j) :=
  View.read_writes_cons_rows_of_not_mem (o := 200 * n) (W := 200) v f inb w L (ix2 r j) hoff rfl
    (by show r.val < 200 * n ∨ 200 * n + 200 ≤ r.val; omega)

end Hidden

variable {F : FTy → Type} [FloatOps F]
variable (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S200x256 .bf16) (harg12 : arg12.IsWhole) (arg13 : Memref sig .tc .vmem S2x256 .f32) (harg13 : arg13.IsWhole)

section A

variable (h1 : q1 i) (h2 : ¬q2 i) (h3 : q3 i) (h4 : ¬q4 i) (h5 : q5 i) (h6 : ¬q6 i) (h7 : ¬q7 i)

section

variable (x0 : Vec F S200x10000 .f32) (x1 : Vec F S10000x256 .f32) (x2 x3 : Vec F S256x256 .f32) (x4 x5 x6 x7 x8 x9 : Vec F S1x256 .f32)

theorem slab_A_eq :
    slab_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9
      = [⟨Rect.unit (s := S10000x256) (k0_off1 i) S200x256.size (k0_off1_inb i h3), k0_pay23 x0 (supp_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9)⟩] := by
  unfold slab_A supp_A
  unfold kernelRun0_A
  dsimp only
  sl_unfold_words
  simp only [View.readCov, View.readAt_eq_ld, harg2.read_unread, View.ld_unit_zero (S := S200x10000) zero2,
    View.ld_unit_zero (S := S10000x256) zero2]

end

variable (x0 : Vec Ideal S200x10000 .f32) (x1 : Vec Ideal S10000x256 .f32) (x2 x3 : Vec Ideal S256x256 .f32) (x4 x5 x6 x7 x8 x9 : Vec Ideal S1x256 .f32)

theorem supp_A_apply (r : Fin 10000) (j : Fin 256) :
    supp_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 (ix2 r j) = ∑ k : Fin 256, x1 (ix2 r k) * x2 (ix2 k j) := by
  unfold supp_A
  unfold kernelRun0_A
  dsimp only
  sl_unfold_words
  simp only [View.readAt_eq_ld, harg3.read_unread, harg4.read_unread, View.ld_unit_zero (S := S256x256) zero2]
  rcases (by omega : r.val < 2000 ∨ 2000 ≤ r.val ∧ r.val < 4000 ∨ 4000 ≤ r.val ∧ r.val < 6000
    ∨ 6000 ≤ r.val ∧ r.val < 8000 ∨ 8000 ≤ r.val) with h | h | h | h | h <;>
  · repeat (refine (read_slab_of_not_mem (W := 2000) _ _ _ _ _ _ r j (by omega)).trans ?_)
    exact (read_slab_of_mem (W := 2000) _ _ _ _ _ _ r j ⟨by omega, by omega⟩).trans
      ((castMatmul_apply _ _ _ _).trans (slab_prod x1 x2 _ _ r j ⟨by omega, by omega⟩))

theorem st_A_row0 (j : Fin 256) :
    st_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 (ix2 (0 : Fin 2) j)
      = ∑ a : Fin 200, ∑ k : Fin 10000, x0 (ix2 a k) * supp_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 (ix2 k j) := by
  unfold st_A supp_A
  unfold kernelRun0_A
  dsimp only
  sl_unfold_words
  simp only [View.readCov, View.readAt_eq_ld, harg2.read_unread, View.ld_unit_zero (S := S200x10000) zero2,
    View.ld_unit_zero (S := S10000x256) zero2]
  exact (read_row0 _ _ _ _ _ _ j).trans (k0_pay25_apply _ _ j)

theorem st_A_row1 (j : Fin 256) :
    st_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 (ix2 (1 : Fin 2) j)
      = ∑ a : Fin 200, (∑ k : Fin 10000, x0 (ix2 a k) * supp_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 (ix2 k j))
          * (∑ k : Fin 10000, x0 (ix2 a k) * supp_A c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 (ix2 k j)) := by
  unfold st_A supp_A
  unfold kernelRun0_A
  dsimp only
  sl_unfold_words
  simp only [View.readCov, View.readAt_eq_ld, harg2.read_unread, View.ld_unit_zero (S := S200x10000) zero2,
    View.ld_unit_zero (S := S10000x256) zero2]
  exact (read_row1 _ _ _ _ _ _ j).trans (k0_pay26_apply _ _ j)

end A

section B

variable (h1 : ¬q1 i) (h2 : ¬q2 i) (h3 : q3 i) (h4 : ¬q4 i) (h5 : ¬q5 i) (h6 : q6 i) (h7 : ¬q7 i)

section

variable (x0 : Vec F S200x10000 .f32) (x1 : Vec F S10000x256 .f32) (x2 x3 : Vec F S256x256 .f32) (x4 x5 x6 x7 x8 x9 : Vec F S1x256 .f32) (xs14 : Vec F S10000x256 .f32) (xs16 : Vec F S2x256 .f32)

theorem slab_B_eq :
    slab_B c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs16
      = [⟨Rect.unit (s := S10000x256) (k0_off1 i) S200x256.size (k0_off1_inb i h3), k0_pay23 x0 xs14⟩] := by
  unfold slab_B
  unfold kernelRun0_B
  dsimp only
  sl_unfold_words
  simp only [View.readAt_eq_ld, harg2.read_unread, hsc0.read_unread, View.ld_unit_zero (S := S200x10000) zero2,
    View.ld_unit_zero (S := S10000x256) zero2]

end

variable (x0 : Vec Ideal S200x10000 .f32) (x1 : Vec Ideal S10000x256 .f32) (x2 x3 : Vec Ideal S256x256 .f32) (x4 x5 x6 x7 x8 x9 : Vec Ideal S1x256 .f32) (xs14 : Vec Ideal S10000x256 .f32) (xs16 : Vec Ideal S2x256 .f32)

theorem st_B_row0 (j : Fin 256) :
    st_B c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs16 (ix2 (0 : Fin 2) j)
      = xs16 (ix2 (0 : Fin 2) j) + ∑ a : Fin 200, ∑ k : Fin 10000, x0 (ix2 a k) * xs14 (ix2 k j) := by
  unfold st_B
  unfold kernelRun0_B
  dsimp only
  sl_unfold_words
  simp only [View.readAt_eq_ld, harg2.read_unread, hsc0.read_unread, hsc2.read_unread,
    View.ld_unit_zero (S := S200x10000) zero2, View.ld_unit_zero (S := S10000x256) zero2]
  refine (read_row0 _ _ _ _ _ _ j).trans ((k0_pay27_apply _ _ _ j).trans ?_)
  rw [ld_rows_apply 0 _ 0 j xs16 0 rfl]

theorem st_B_row1 (j : Fin 256) :
    st_B c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs16 (ix2 (1 : Fin 2) j)
      = xs16 (ix2 (1 : Fin 2) j) + ∑ a : Fin 200, (∑ k : Fin 10000, x0 (ix2 a k) * xs14 (ix2 k j))
          * (∑ k : Fin 10000, x0 (ix2 a k) * xs14 (ix2 k j)) := by
  unfold st_B
  unfold kernelRun0_B
  dsimp only
  sl_unfold_words
  simp only [View.readAt_eq_ld, harg2.read_unread, hsc0.read_unread, hsc2.read_unread,
    View.ld_unit_zero (S := S200x10000) zero2, View.ld_unit_zero (S := S10000x256) zero2]
  refine (read_row1 _ _ _ _ _ _ j).trans ((k0_pay28_apply _ _ _ j).trans ?_)
  rw [ld_rows_apply 1 _ 1 j xs16 0 rfl]

end B

end Cert.KernelIdeal.StateIdeal

end
-- ==== Proof.PayB.lean ====
import proofs.«134973_g77017353552286_cont_9to1c4b_820_20_alg».proof.Proof.PayA

noncomputable section

open scoped BigOperators

namespace Cert.KernelIdeal.PayIdeal

open Idealize.ShloMosaic Idealize.ShloMosaic.ValueIdx Idealize.SL.Sem
open Cert.KernelIdeal Cert.KernelIdeal.Gen Cert.Spec

abbrev row1 {b : Nat} (v : (⟨2, ![1, b]⟩ : Shape).Idx → EReal) : Row b := fun j => v (ix2 (0 : Fin 1) j)

-- A slab scaled and shifted by two rows, then multiplied by a 256×256 matrix, at (r, j).
theorem affine_matmul_apply (h : FVec Ideal S2000x256 .f32) (sc sh : FVec Ideal S1x256 .f32)
    (W : FVec Ideal S256x256 .f32) (r : Fin 2000) (j : Fin 256) :
    shapeCast S2000x256
        (matmul dot_S2000x256_S256x256_S2000x256_1_0_0_1_n_n none
          (addf (mulf h (broadcastTo S2000x256 sc broadcasts_S1x256_S2000x256))
            (broadcastTo S2000x256 sh broadcasts_S1x256_S2000x256))
          W (constant (F := Ideal) S2000x256 .f32 0x00000000#32))
        shapeCasts_S2000x256_S2000x256 (ix2 r j)
      = ∑ k : Fin 256, (h (ix2 r k) * sc (ix2 0 k) + sh (ix2 0 k)) * W (ix2 k j) := by
  rw [castMatmul_apply]
  refine Finset.sum_congr rfl fun k _ => ?_
  rw [addf_apply, mulf_apply, broadcastTo_1b_ab_apply, broadcastTo_1b_ab_apply]

theorem k0_pay14_apply (sc sh : FVec Ideal S1x256 .f32) (h : Vec Ideal S2000x256 .bf16)
    (W : Vec Ideal S256x256 .f32) (r : Fin 2000) (j : Fin 256) :
    k0_pay14 sc sh h W (ix2 r j) = ∑ k : Fin 256, (h (ix2 r k) * sc (ix2 0 k) + sh (ix2 0 k)) * W (ix2 k j) :=
  affine_matmul_apply h sc sh W r j

section

variable (cst : Ideal .f32) (hcst : cst = cN) (b g be cs css : Vec Ideal S1x256 .f32) (j : Fin 256)

theorem k0_pay1_eq : k0_pay1 b = b := shapeCast_self _ _

theorem k0_pay3_apply : k0_pay3 b g cs css (ix2 0 j) = kScale (row1 cs) (row1 css) (row1 b) (row1 g) j := by
  unfold k0_pay3 k0_pay2; simp only [k0_pay1_eq, shapeCast_self]; rfl

theorem k0_pay4_apply :
    k0_pay4 b g be cs css (ix2 0 j) = kShift (row1 cs) (row1 css) (row1 b) (row1 g) (row1 be) j := by
  unfold k0_pay4 k0_pay3 k0_pay2; simp only [k0_pay1_eq, shapeCast_self]; rfl

theorem k0_pay9_eq : k0_pay9 b = b := shapeCast_self _ _

include hcst

theorem k0_pay11_apply :
    k0_pay11 cst b g cs css (ix2 0 j) = kScale (row1 cs) (row1 css) (row1 b) (row1 g) j := by
  subst hcst; unfold k0_pay11 k0_pay10; simp only [k0_pay9_eq, shapeCast_self]; rfl

theorem k0_pay12_apply :
    k0_pay12 cst b g be cs css (ix2 0 j) = kShift (row1 cs) (row1 css) (row1 b) (row1 g) (row1 be) j := by
  subst hcst; unfold k0_pay12 k0_pay11 k0_pay10; simp only [k0_pay9_eq, shapeCast_self]; rfl

end

end Cert.KernelIdeal.PayIdeal

end
-- ==== Proof.StateIdealB.lean ====
import proofs.«134973_g77017353552286_cont_9to1c4b_820_20_alg».proof.Proof.StateIdealA
import proofs.«134973_g77017353552286_cont_9to1c4b_820_20_alg».proof.Proof.PayB
set_option maxRecDepth 16384

noncomputable section

namespace Cert.KernelIdeal.StateIdeal

open scoped BigOperators
open Idealize.ShloMosaic Idealize.ShloMosaic.ValueIdx Idealize.ShloMosaic.Tactic
open Cert.KernelIdeal Cert.KernelIdeal.Gen Cert.KernelIdeal.Hand Cert.KernelIdeal.PayIdeal Cert.Spec

abbrev r0 {b : Nat} (v : (⟨2, ![2, b]⟩ : Shape).Idx → EReal) : Row b := fun j => v (ix2 (0 : Fin 2) j)
abbrev r1 {b : Nat} (v : (⟨2, ![2, b]⟩ : Shape).Idx → EReal) : Row b := fun j => v (ix2 (1 : Fin 2) j)

theorem row1_ld0 (xs16 : Vec Ideal S2x256 .f32)
    (inb : ∀ a, (![0, 0] : Fin 2 → ℕ) a + S1x256.size a ≤ S2x256.size a) :
    row1 (View.ld xs16 (Rect.unit ![0, 0] S1x256.size inb)) = r0 xs16 :=
  funext fun j => ld_rows_apply 0 inb 0 j xs16 0 rfl
theorem row1_ld1 (xs16 : Vec Ideal S2x256 .f32)
    (inb : ∀ a, (![1, 0] : Fin 2 → ℕ) a + S1x256.size a ≤ S2x256.size a) :
    row1 (View.ld xs16 (Rect.unit ![1, 0] S1x256.size inb)) = r1 xs16 :=
  funext fun j => ld_rows_apply 1 inb 1 j xs16 0 rfl

theorem slab_sum (cst : Ideal .f32) (hcst : cst = cN) (x3 : Vec Ideal S256x256 .f32) (x4 x6 x8 : Vec Ideal S1x256 .f32)
    (xs15 : Vec Ideal S10000x256 .bf16) (xs16 : Vec Ideal S2x256 .f32) (o : Nat)
    (iS : ∀ a, (![o, 0] : Fin 2 → ℕ) a + S2000x256.size a ≤ S10000x256.size a)
    (i0 : ∀ a, (![0, 0] : Fin 2 → ℕ) a + S1x256.size a ≤ S2x256.size a)
    (i1 : ∀ a, (![1, 0] : Fin 2 → ℕ) a + S1x256.size a ≤ S2x256.size a)
    (a : Fin 2000) (r : Fin 10000) (hr : r.val = o + a.val) (j : Fin 256) :
    k0_pay14 (k0_pay11 cst x4 x6 (View.ld xs16 (Rect.unit ![0, 0] S1x256.size i0))
          (View.ld xs16 (Rect.unit ![1, 0] S1x256.size i1)))
        (k0_pay12 cst x4 x6 x8 (View.ld xs16 (Rect.unit ![0, 0] S1x256.size i0))
          (View.ld xs16 (Rect.unit ![1, 0] S1x256.size i1)))
        (View.ld xs15 (Rect.unit ![o, 0] S2000x256.size iS)) x3 (ix2 a j)
      = ∑ k : Fin 256, (xs15 (ix2 r k) * kScale (r0 xs16) (r1 xs16) (row1 x4) (row1 x6) k
          + kShift (r0 xs16) (r1 xs16) (row1 x4) (row1 x6) (row1 x8) k) * x3 (ix2 k j) :=
  (k0_pay14_apply _ _ _ _ a j).trans (Finset.sum_congr rfl fun k _ => by
    rw [k0_pay11_apply cst hcst, k0_pay12_apply cst hcst, row1_ld0, row1_ld1, ld_rows_apply o iS r k xs15 a hr])

section Rows2

variable {Val : EltTy → Type} {sig' : RefSig} {κ : Kind} {sp : Space} {e : EltTy}
  (v : View sig' κ sp S2x256 e) (f : v.ty.Contents Val)
  (i1 : ∀ a, (![1, 0] : Fin 2 → ℕ) a + S1x256.size a ≤ S2x256.size a)
  (i0 : ∀ a, (![0, 0] : Fin 2 → ℕ) a + S1x256.size a ≤ S2x256.size a)
  (w1 w0 : S1x256.Idx → Val e) (j : Fin 256) [∀ e, Nonempty (Val e)]

theorem readCov_rows2_0 :
    v.readCov [⟨Rect.unit ![1, 0] S1x256.size i1, w1⟩, ⟨Rect.unit ![0, 0] S1x256.size i0, w0⟩]
        (Rect.unit (s := S2x256) ![0, 0] S1x256.size i0).toLoadRect (ix2 (0 : Fin 1) j)
      = v.read Val (v.writes Val f [⟨Rect.unit ![1, 0] S1x256.size i1, w1⟩, ⟨Rect.unit ![0, 0] S1x256.size i0, w0⟩])
          (ix2 (0 : Fin 2) j) :=
  (ld_rows_apply 0 i0 0 j (v.read Val (v.writes Val v.junk _)) 0 rfl).trans
    ((read_row0 v v.junk i1 i0 w1 w0 j).trans (read_row0 v f i1 i0 w1 w0 j).symm)

theorem readCov_rows2_1 :
    v.readCov [⟨Rect.unit ![1, 0] S1x256.size i1, w1⟩, ⟨Rect.unit ![0, 0] S1x256.size i0, w0⟩]
        (Rect.unit (s := S2x256) ![1, 0] S1x256.size i1).toLoadRect (ix2 (0 : Fin 1) j)
      = v.read Val (v.writes Val f [⟨Rect.unit ![1, 0] S1x256.size i1, w1⟩, ⟨Rect.unit ![0, 0] S1x256.size i0, w0⟩])
          (ix2 (1 : Fin 2) j) :=
  (ld_rows_apply 1 i1 1 j (v.read Val (v.writes Val v.junk _)) 0 rfl).trans
    ((read_row1 v v.junk i1 i0 w1 w0 j).trans (read_row1 v f i1 i0 w1 w0 j).symm)

end Rows2

abbrev blockProd (x0 : Vec Ideal S200x10000 .f32) (S : Vec Ideal S10000x256 .f32) (a : Fin 200) (j : Fin 256) : EReal :=
  ∑ k : Fin 10000, x0 (ix2 a k) * S (ix2 k j)

variable (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S200x256 .bf16) (harg12 : arg12.IsWhole) (arg13 : Memref sig .tc .vmem S2x256 .f32) (harg13 : arg13.IsWhole)

section C

variable (h1 : ¬q1 i) (h2 : q2 i) (h3 : ¬q3 i) (h4 : q4 i) (h5 : q5 i) (h6 : ¬q6 i) (h7 : ¬q7 i)
  (x0 : Vec Ideal S200x10000 .f32) (x1 : Vec Ideal S10000x256 .f32) (x2 x3 : Vec Ideal S256x256 .f32) (x4 x5 x6 x7 x8 x9 : Vec Ideal S1x256 .f32) (xs15 : Vec Ideal S10000x256 .bf16) (xs16 : Vec Ideal S2x256 .f32)

theorem supp_C_apply (r : Fin 10000) (j : Fin 256) :
    supp_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16 (ix2 r j)
      = ∑ k : Fin 256, (xs15 (ix2 r k) * kScale (r0 xs16) (r1 xs16) (row1 x4) (row1 x6) k
          + kShift (r0 xs16) (r1 xs16) (row1 x4) (row1 x6) (row1 x8) k) * x3 (ix2 k j) := by
  unfold supp_C
  unfold kernelRun0_C; dsimp only; sl_unfold_words
  simp only [View.readAt_eq_ld, harg5.read_unread, harg6.read_unread, harg8.read_unread, harg10.read_unread,
    hsc1.read_unread, hsc2.read_unread, View.ld_unit_zero (S := S256x256) zero2, View.ld_unit_zero (S := S1x256) zero2]
  rcases (by omega : r.val < 2000 ∨ 2000 ≤ r.val ∧ r.val < 4000 ∨ 4000 ≤ r.val ∧ r.val < 6000
    ∨ 6000 ≤ r.val ∧ r.val < 8000 ∨ 8000 ≤ r.val) with h | h | h | h | h <;>
  · repeat (refine (read_slab_of_not_mem (W := 2000) VS0 _ _ _ _ _ r j (by omega)).trans ?_)
    exact (read_slab_of_mem (W := 2000) VS0 _ _ _ _ _ r j ⟨by omega, by omega⟩).trans
      (slab_sum _ rfl x3 x4 x6 x8 xs15 xs16 _ _ _ _ _ r (by show r.val = _ + (r.val - _); omega) j)

theorem out10_C_apply (a : Fin 200) (j : Fin 256) :
    out10_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16 (ix2 a j)
      = blockProd x0 (supp_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16) a j := by
  unfold out10_C supp_C
  rw [View.read_writes_junk_eq_canon VO10]
  unfold kernelRun0_C; dsimp only; sl_unfold_words
  rw [View.canon_unit_zero (S := S200x256) zero2]
  simp only [View.readCov, View.readAt_eq_ld, harg2.read_unread, View.ld_unit_zero (S := S200x10000) zero2,
    View.ld_unit_zero (S := S10000x256) zero2]
  exact k0_pay24_apply _ _ a j

theorem st_C_apply0 (j : Fin 256) :
    st_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16 (ix2 (0 : Fin 2) j)
      = ∑ a : Fin 200, blockProd x0 (supp_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16) a j := by
  unfold st_C supp_C
  unfold kernelRun0_C; dsimp only; sl_unfold_words
  simp only [View.readCov, View.readAt_eq_ld, harg2.read_unread, View.ld_unit_zero (S := S200x10000) zero2,
    View.ld_unit_zero (S := S10000x256) zero2]
  exact (read_row0 VS2 _ _ _ _ _ j).trans (k0_pay25_apply _ _ j)

theorem st_C_apply1 (j : Fin 256) :
    st_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16 (ix2 (1 : Fin 2) j)
      = ∑ a : Fin 200, blockProd x0 (supp_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16) a j
          * blockProd x0 (supp_C c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs15 xs16) a j := by
  unfold st_C supp_C
  unfold kernelRun0_C; dsimp only; sl_unfold_words
  simp only [View.readCov, View.readAt_eq_ld, harg2.read_unread, View.ld_unit_zero (S := S200x10000) zero2,
    View.ld_unit_zero (S := S10000x256) zero2]
  exact (read_row1 VS2 _ _ _ _ _ j).trans (k0_pay26_apply _ _ j)

end C

section D

variable (h1 : ¬q1 i) (h2 : ¬q2 i) (h3 : ¬q3 i) (h4 : q4 i) (h5 : ¬q5 i) (h6 : q6 i) (h7 : ¬q7 i)
  (x0 : Vec Ideal S200x10000 .f32) (x1 : Vec Ideal S10000x256 .f32) (x2 x3 : Vec Ideal S256x256 .f32) (x4 x5 x6 x7 x8 x9 : Vec Ideal S1x256 .f32) (xs14 : Vec Ideal S10000x256 .f32) (xs15 : Vec Ideal S10000x256 .bf16) (xs16 : Vec Ideal S2x256 .f32)

theorem out10_D_apply (a : Fin 200) (j : Fin 256) :
    out10_D c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 a j) = blockProd x0 xs14 a j := by
  unfold out10_D
  rw [View.read_writes_junk_eq_canon VO10]
  unfold kernelRun0_D; dsimp only; sl_unfold_words
  rw [View.canon_unit_zero (S := S200x256) zero2]
  simp only [View.readAt_eq_ld, harg2.read_unread, hsc0.read_unread, hsc2.read_unread,
    View.ld_unit_zero (S := S200x10000) zero2, View.ld_unit_zero (S := S10000x256) zero2]
  exact k0_pay24_apply _ _ a j

theorem st_D_apply0 (j : Fin 256) :
    st_D c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 (0 : Fin 2) j)
      = xs16 (ix2 (0 : Fin 2) j) + ∑ a : Fin 200, blockProd x0 xs14 a j := by
  unfold st_D
  unfold kernelRun0_D; dsimp only; sl_unfold_words
  simp only [View.readAt_eq_ld, harg2.read_unread, hsc0.read_unread, hsc2.read_unread,
    View.ld_unit_zero (S := S200x10000) zero2, View.ld_unit_zero (S := S10000x256) zero2]
  refine (read_row0 VS2 _ _ _ _ _ j).trans ((k0_pay27_apply _ _ _ j).trans ?_)
  rw [ld_rows_apply 0 _ 0 j xs16 0 rfl]

theorem st_D_apply1 (j : Fin 256) :
    st_D c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 (1 : Fin 2) j)
      = xs16 (ix2 (1 : Fin 2) j) + ∑ a : Fin 200, blockProd x0 xs14 a j * blockProd x0 xs14 a j := by
  unfold st_D
  unfold kernelRun0_D; dsimp only; sl_unfold_words
  simp only [View.readAt_eq_ld, harg2.read_unread, hsc0.read_unread, hsc2.read_unread,
    View.ld_unit_zero (S := S200x10000) zero2, View.ld_unit_zero (S := S10000x256) zero2]
  refine (read_row1 VS2 _ _ _ _ _ j).trans ((k0_pay28_apply _ _ _ j).trans ?_)
  rw [ld_rows_apply 1 _ 1 j xs16 0 rfl]

end D

section E

variable (h1 : ¬q1 i) (h2 : ¬q2 i) (h3 : ¬q3 i) (h4 : q4 i) (h5 : ¬q5 i) (h6 : q6 i) (h7 : q7 i)
  (x0 : Vec Ideal S200x10000 .f32) (x1 : Vec Ideal S10000x256 .f32) (x2 x3 : Vec Ideal S256x256 .f32) (x4 x5 x6 x7 x8 x9 : Vec Ideal S1x256 .f32) (xs14 : Vec Ideal S10000x256 .f32) (xs15 : Vec Ideal S10000x256 .bf16) (xs16 : Vec Ideal S2x256 .f32)

theorem out10_E_apply (a : Fin 200) (j : Fin 256) :
    out10_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 a j) = blockProd x0 xs14 a j := by
  unfold out10_E
  rw [View.read_writes_junk_eq_canon VO10]
  unfold kernelRun0_E; dsimp only; sl_unfold_words
  rw [View.canon_unit_zero (S := S200x256) zero2]
  simp only [View.readAt_eq_ld, harg2.read_unread, hsc0.read_unread, hsc2.read_unread,
    View.ld_unit_zero (S := S200x10000) zero2, View.ld_unit_zero (S := S10000x256) zero2]
  exact k0_pay24_apply _ _ a j

theorem st_E_apply0 (j : Fin 256) :
    st_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 (0 : Fin 2) j)
      = xs16 (ix2 (0 : Fin 2) j) + ∑ a : Fin 200, blockProd x0 xs14 a j := by
  unfold st_E
  unfold kernelRun0_E; dsimp only; sl_unfold_words
  simp only [View.readAt_eq_ld, harg2.read_unread, hsc0.read_unread, hsc2.read_unread,
    View.ld_unit_zero (S := S200x10000) zero2, View.ld_unit_zero (S := S10000x256) zero2]
  refine (read_row0 VS2 _ _ _ _ _ j).trans ((k0_pay27_apply _ _ _ j).trans ?_)
  rw [ld_rows_apply 0 _ 0 j xs16 0 rfl]

theorem st_E_apply1 (j : Fin 256) :
    st_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 (1 : Fin 2) j)
      = xs16 (ix2 (1 : Fin 2) j) + ∑ a : Fin 200, blockProd x0 xs14 a j * blockProd x0 xs14 a j := by
  unfold st_E
  unfold kernelRun0_E; dsimp only; sl_unfold_words
  simp only [View.readAt_eq_ld, harg2.read_unread, hsc0.read_unread, hsc2.read_unread,
    View.ld_unit_zero (S := S200x10000) zero2, View.ld_unit_zero (S := S10000x256) zero2]
  refine (read_row1 VS2 _ _ _ _ _ j).trans ((k0_pay28_apply _ _ _ j).trans ?_)
  rw [ld_rows_apply 1 _ 1 j xs16 0 rfl]

theorem out11_E_apply0 (j : Fin 256) :
    out11_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 (0 : Fin 2) j)
      = kScale (r0 (st_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16)) (r1 (st_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16)) (row1 x5) (row1 x7) j := by
  unfold out11_E st_E
  unfold kernelRun0_E; dsimp only; sl_unfold_words
  simp only [View.readAt_eq_ld, harg7.read_unread, harg9.read_unread, harg11.read_unread,
    View.ld_unit_zero (S := S1x256) zero2]
  refine (read_row0 VO11 _ _ _ _ _ j).trans ((k0_pay3_apply _ _ _ _ j).trans ?_)
  exact congrArg₂ (fun u w => kScale u w (row1 x5) (row1 x7) j)
    (funext fun k => readCov_rows2_0 VS2 _ _ _ _ _ k) (funext fun k => readCov_rows2_1 VS2 _ _ _ _ _ k)

theorem out11_E_apply1 (j : Fin 256) :
    out11_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16 (ix2 (1 : Fin 2) j)
      = kShift (r0 (st_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16)) (r1 (st_E c i arg2 harg2 arg3 harg3 arg4 harg4 arg5 harg5 arg6 harg6 arg7 harg7 arg8 harg8 arg9 harg9 arg10 harg10 arg11 harg11 arg12 harg12 arg13 harg13 h1 h2 h3 h4 h5 h6 h7 x0 x1 x2 x3 x4 x5 x6 x7 x8 x9 xs14 xs15 xs16)) (row1 x5) (row1 x7) (row1 x9) j := by
  unfold out11_E st_E
  unfold kernelRun0_E; dsimp only; sl_unfold_words
  simp only [View.readAt_eq_ld, harg7.read_unread, harg9.read_unread, harg11.read_unread,
    View.ld_unit_zero (S := S1x256) zero2]
  refine (read_row1 VO11 _ _ _ _ _ j).trans ((k0_pay4_apply _ _ _ _ _ j).trans ?_)
  exact congrArg₂ (fun u w => kShift u w (row1 x5) (row1 x7) (row1 x9) j)
    (funext fun k => readCov_rows2_0 VS2 _ _ _ _ _ k) (funext fun k => readCov_rows2_1 VS2 _ _ _ _ _ k)

end E

end Cert.KernelIdeal.StateIdeal

end
-- ==== Proof.ValPh0.lean ====
import proofs.«134973_g77017353552286_cont_9to1c4b_820_20_alg».proof.Proof.StateIdealA
import proofs.«134973_g77017353552286_cont_9to1c4b_820_20_alg».proof.Proof.InputsIdeal

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.KernelIdeal.StateIdeal Cert.Spec

variable (V : (c : Dev nD) → (b : Ref sig .tc) → Buf (Elt Ideal) ((c : Thread nD τ).loc b)) (c : Dev nD)

theorem suppA_apply (r : Fin 10000) (j : Fin 256) : suppA_at V c (pt 0 (by decide)) rfl (ix2 r j) = S1 V c r j := by
  unfold suppA_at
  refine (supp_A_apply ..).trans ?_
  rw [iblk0_1, iblk0_2]
  rfl

theorem ph0_supp (n : ℕ) (hn : n < 50) (r : Fin 10000) (j : Fin 256) : (ph0 V c n hn).1 (ix2 r j) = S1 V c r j := by
  induction n with
  | zero => rw [ph0_zero]; dsimp only; exact suppA_apply V c r j
  | succ n ih => rw [ph0_succ]; dsimp only; exact ih _

/-- Block n of ADJ times a support that is X·W₁ gives block n's rows of ADJ·(X·W₁). -/
theorem block_prod (n : ℕ) (hn : n < 50) (S : Vec Ideal S10000x256 .f32) (hS : ∀ k j, S (ix2 k j) = S1 V c k j)
    (a : Fin 200) (j : Fin 256) :
    ∑ k : Fin 10000, adjBlk V c (pt n (by omega)) (ix2 a k) * S (ix2 k j) = H1 V c (blockRow ⟨n, hn⟩ a) j :=
  blockProd_at V c _ S _ hS ⟨n, hn⟩ (Nat.mod_eq_of_lt hn) a j

/-- After the first phase the two statistics rows are the column sums of ADJ·(X·W₁) and of its squares. -/
theorem stat49 (j : Fin 256) : (ph0 V c 49 (by decide)).2.1 (ix2 (0 : Fin 2) j) = colSum (H1 V c) j
    ∧ (ph0 V c 49 (by decide)).2.1 (ix2 (1 : Fin 2) j) = colSumSq (H1 V c) j := by
  refine ⟨sum_of_blocks (fun r => H1 V c r j) (fun n hn => (ph0 V c n hn).2.1 (ix2 (0 : Fin 2) j)) ?_ fun n hn => ?_,
    sum_of_blocks (fun r => H1 V c r j * H1 V c r j) (fun n hn => (ph0 V c n hn).2.1 (ix2 (1 : Fin 2) j)) ?_ fun n hn => ?_⟩
  · rw [ph0_zero]; dsimp only; unfold stA_at
    exact (st_A_row0 ..).trans (Finset.sum_congr rfl fun a _ => block_prod V c 0 (by decide) _ (suppA_apply V c) a j)
  · rw [ph0_succ]; dsimp only; unfold stB_at
    exact (st_B_row0 ..).trans (congrArg (_ + ·) (Finset.sum_congr rfl fun a _ =>
      block_prod V c (n + 1) hn _ (ph0_supp V c n _) a j))
  · rw [ph0_zero]; dsimp only; unfold stA_at
    exact (st_A_row1 ..).trans (Finset.sum_congr rfl fun a _ =>
      congrArg (fun z => z * z) (block_prod V c 0 (by decide) _ (suppA_apply V c) a j))
  · rw [ph0_succ]; dsimp only; unfold stB_at
    exact (st_B_row1 ..).trans (congrArg (_ + ·) (Finset.sum_congr rfl fun a _ =>
      congrArg (fun z => z * z) (block_prod V c (n + 1) hn _ (ph0_supp V c n _) a j)))

/-- If the rows below block n hold ADJ·(X·W₁), then with block n added so do the rows below block n + 1. -/
theorem hidden_step (n : ℕ) (hn : n < 50)
    (inb : ∀ a : Fin 2, k0_off1 (grid0.coords (pt n (by omega))) a + S200x256.size a ≤ S10000x256.size a)
    (S : Vec Ideal S10000x256 .f32) (hS : ∀ k j, S (ix2 k j) = S1 V c k j)
    (L : List (View.Piece (Elt Ideal) S10000x256 .bf16)) (r : Fin 10000) (j : Fin 256)
    (ih : r.val < 200 * n → VS1.read (Elt Ideal) (VS1.writes (Elt Ideal) VS1.junk L) (ix2 r j) = H1 V c r j)
    (hr : r.val < 200 * (n + 1)) :
    VS1.read (Elt Ideal) (VS1.writes (Elt Ideal) VS1.junk
      ((⟨Rect.unit (s := S10000x256) (k0_off1 (grid0.coords (pt n (by omega)))) S200x256.size inb,
        k0_pay23 (adjBlk V c (pt n (by omega))) S⟩ : View.Piece (Elt Ideal) S10000x256 .bf16) :: L)) (ix2 r j)
      = H1 V c r j := by
  have hoff : k0_off1 (grid0.coords (pt n (by omega))) = ![200 * n, 0] := off1_eq (pt n (by omega)) hn
  by_cases hin : 200 * n ≤ r.val
  · refine (hidden_cons_of_mem VS1 VS1.junk _ n inb _ L r j hoff ⟨hin, hr⟩).trans (((congrFun (shapeCast_self _ _) _).trans (PayIdeal.k0_pay20_apply ..)).trans ?_)
    refine (block_prod V c n hn S hS _ j).trans (congrArg (H1 V c · j) (Fin.ext ?_))
    show 200 * n + (r.val - 200 * n) = r.val
    omega
  · exact (hidden_cons_of_not_mem VS1 VS1.junk _ n inb _ L r j hoff (Or.inl (by omega))).trans (ih (by omega))

theorem ph0_hidden (n : ℕ) (hn : n < 50) (r : Fin 10000) (j : Fin 256) (hr : r.val < 200 * (n + 1)) :
    VS1.read (Elt Ideal) (VS1.writes (Elt Ideal) VS1.junk (ph0 V c n hn).2.2) (ix2 r j) = H1 V c r j := by
  induction n with
  | zero =>
    rw [ph0_zero]; dsimp only; rw [show slabA_at V c (pt 0 (by decide)) rfl = _ from slab_A_eq ..]
    exact hidden_step V c 0 hn _ _ (suppA_apply V c) [] r j (fun h => absurd h (Nat.not_lt_zero _)) hr
  | succ n ih =>
    rw [ph0_succ]; dsimp only
    rw [show slabB_at V c (pt (n + 1) (by omega)) (Nat.succ_ne_zero n) hn _ _ = _ from slab_B_eq .., List.singleton_append]
    exact hidden_step V c (n + 1) hn _ _ (ph0_supp V c n _) _ r j (ih _) hr

theorem h1Full_apply (r : Fin 10000) (j : Fin 256) : h1Full V c (ix2 r j) = H1 V c r j :=
  ph0_hidden V c 49 (by decide) r j (by have := r.isLt; omega)

end Cert.KernelIdeal.Hand

end
-- ==== Proof.ValPh1.lean ====
import proofs.«134973_g77017353552286_cont_9to1c4b_820_20_alg».proof.Proof.StateIdealB
import proofs.«134973_g77017353552286_cont_9to1c4b_820_20_alg».proof.Proof.ValPh0

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec Cert.KernelIdeal.StateIdeal Cert.KernelIdeal.PayIdeal

variable (V : (c : Dev nD) → (b : Ref sig .tc) → Buf (Elt Ideal) ((c : Thread nD τ).loc b)) (c : Dev nD)

/-- The support written at the second phase's first point is A₁·W₂, A₁ being ADJ·(X·W₁) normalised from its column sums. -/
theorem suppC_S2 (r : Fin 10000) (j : Fin 256) :
    suppC_at V c (pt 50 (by decide)) rfl (h1Full V c) (ph0 V c 49 (by decide)).2.1 (ix2 r j) = S2 V c r j := by
  unfold suppC_at
  refine (supp_C_apply ..).trans ?_
  rw [iblk0_3, iblk0_4, iblk0_6, iblk0_8, show r0 _ = colSum (H1 V c) from funext fun j => (stat49 V c j).1,
    show r1 _ = colSumSq (H1 V c) from funext fun j => (stat49 V c j).2]
  unfold S2 mm A1 kNorm
  refine Finset.sum_congr rfl fun k _ => ?_
  rw [h1Full_apply]
  rfl

/-- What a later point of the second phase makes of the state before it. -/
abbrev Step (t : Fin cfg0.N)
    (p q : Vec Ideal S200x256 .bf16 × Vec Ideal S2x256 .f32 × Vec Ideal S10000x256 .f32 × Vec Ideal S2x256 .f32) : Prop :=
  q.2.2.1 = p.2.2.1 ∧ (∀ a j, q.1 (ix2 a j) = blockProd (adjBlk V c t) p.2.2.1 a j)
    ∧ (∀ j, q.2.2.2 (ix2 (0 : Fin 2) j) = p.2.2.2 (ix2 (0 : Fin 2) j) + ∑ a : Fin 200, blockProd (adjBlk V c t) p.2.2.1 a j)
    ∧ ∀ j, q.2.2.2 (ix2 (1 : Fin 2) j) = p.2.2.2 (ix2 (1 : Fin 2) j)
      + ∑ a : Fin 200, blockProd (adjBlk V c t) p.2.2.1 a j * blockProd (adjBlk V c t) p.2.2.1 a j

theorem ph1_step (k : ℕ) (hk : k + 1 < 50) :
    Step V c (pt (50 + (k + 1)) (by omega)) (ph1 V c k (Nat.lt_of_succ_lt hk)) (ph1 V c (k + 1) hk) := by
  by_cases hE : k + 1 = 49
  · rw [ph1_succ_last V c k hk hE]; dsimp only [Step]; unfold out10E_at stE_at
    exact ⟨rfl, fun a j => out10_E_apply .., fun j => st_E_apply0 .., fun j => st_E_apply1 ..⟩
  · rw [ph1_succ_mid V c k hk hE]; dsimp only [Step]; unfold out10D_at stD_at
    exact ⟨rfl, fun a j => out10_D_apply .., fun j => st_D_apply0 .., fun j => st_D_apply1 ..⟩

theorem ph1_supp (k : ℕ) (hk : k < 50) (r : Fin 10000) (j : Fin 256) : (ph1 V c k hk).2.2.1 (ix2 r j) = S2 V c r j := by
  induction k with
  | zero => rw [ph1_zero]; dsimp only; exact suppC_S2 V c r j
  | succ k ih => rw [(ph1_step V c k hk).1]; exact ih _

/-- Block n of ADJ times a support that is A₁·W₂ gives block n's rows of ADJ·(A₁·W₂). -/
theorem block2 (n : ℕ) (hn : n < 50) (S : Vec Ideal S10000x256 .f32) (hS : ∀ r j, S (ix2 r j) = S2 V c r j)
    (a : Fin 200) (j : Fin 256) :
    blockProd (adjBlk V c (pt (50 + n) (by omega))) S a j = H2 V c (blockRow ⟨n, hn⟩ a) j :=
  blockProd_at V c _ S _ hS ⟨n, hn⟩ (by show (50 + n) % 50 = n; omega) a j

theorem ph1_block (k : ℕ) (hk : k < 50) (a : Fin 200) (j : Fin 256) :
    (ph1 V c k hk).1 (ix2 a j) = H2 V c (blockRow ⟨k, hk⟩ a) j := by
  cases k with
  | zero =>
    rw [ph1_zero]; dsimp only; unfold out10C_at
    exact (out10_C_apply ..).trans (block2 V c 0 hk _ (suppC_S2 V c) a j)
  | succ k => exact ((ph1_step V c k hk).2.1 a j).trans (block2 V c (k + 1) hk _ (ph1_supp V c k _) a j)

/-- After the second phase the two statistics rows are the column sums of ADJ·(A₁·W₂) and of its squares. -/
theorem stat_last (j : Fin 256) : (ph1 V c 49 (by decide)).2.2.2 (ix2 (0 : Fin 2) j) = colSum (H2 V c) j
    ∧ (ph1 V c 49 (by decide)).2.2.2 (ix2 (1 : Fin 2) j) = colSumSq (H2 V c) j := by
  refine ⟨sum_of_blocks (fun r => H2 V c r j) (fun n hn => (ph1 V c n hn).2.2.2 (ix2 (0 : Fin 2) j)) ?_ fun n hn => ?_,
    sum_of_blocks (fun r => H2 V c r j * H2 V c r j) (fun n hn => (ph1 V c n hn).2.2.2 (ix2 (1 : Fin 2) j)) ?_ fun n hn => ?_⟩
  · rw [ph1_zero]; dsimp only; unfold stC_at
    exact (st_C_apply0 ..).trans (Finset.sum_congr rfl fun a _ => block2 V c 0 (by decide) _ (suppC_S2 V c) a j)
  · exact ((ph1_step V c n hn).2.2.1 j).trans (congrArg (_ + ·) (Finset.sum_congr rfl fun a _ =>
      block2 V c (n + 1) hn _ (ph1_supp V c n _) a j))
  · rw [ph1_zero]; dsimp only; unfold stC_at
    exact (st_C_apply1 ..).trans (Finset.sum_congr rfl fun a _ =>
      congrArg (fun z => z * z) (block2 V c 0 (by decide) _ (suppC_S2 V c) a j))
  · exact ((ph1_step V c n hn).2.2.2 j).trans (congrArg (_ + ·) (Finset.sum_congr rfl fun a _ =>
      congrArg (fun z => z * z) (block2 V c (n + 1) hn _ (ph1_supp V c n _) a j)))

/-- The last point's coefficient rows are the second normalisation's scale and shift. -/
theorem coef (j : Fin 256) :
    (ph1 V c 49 (by decide)).2.1 (ix2 (0 : Fin 2) j) = kScale (colSum (H2 V c)) (colSumSq (H2 V c)) (B2 V c) (G2 V c) j
    ∧ (ph1 V c 49 (by decide)).2.1 (ix2 (1 : Fin 2) j)
      = kShift (colSum (H2 V c)) (colSumSq (H2 V c)) (B2 V c) (G2 V c) (BE2 V c) j := by
  rw [← (funext fun j => (stat_last V c j).1 : r0 (ph1 V c 49 (by decide)).2.2.2 = _),
    ← (funext fun j => (stat_last V c j).2 : r1 (ph1 V c 49 (by decide)).2.2.2 = _),
    show ph1 V c 49 (by decide) = _ from ph1_succ_last V c 48 (by decide) rfl]
  dsimp only; unfold out11E_at stE_at
  have b t : row1 (iblk0 V c 5 t) = B2 V c := congrArg row1 (iblk0_5 V c t)
  have g t : row1 (iblk0 V c 7 t) = G2 V c := congrArg row1 (iblk0_7 V c t)
  have e t : row1 (iblk0 V c 9 t) = BE2 V c := congrArg row1 (iblk0_9 V c t)
  exact ⟨(out11_E_apply0 ..).trans (by rw [b, g]), (out11_E_apply1 ..).trans (by rw [b, g, e])⟩

end Cert.KernelIdeal.Hand

end
-- ==== Proof.HostIdeal.lean ====
import proofs.«134973_g77017353552286_cont_9to1c4b_820_20_alg».proof.Proof.Run
import proofs.«134973_g77017353552286_cont_9to1c4b_820_20_alg».proof.Proof.ValSpec
import Idealize.ShloMosaic.Lib.ValueLayout

noncomputable section

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-- A vector reshaped to one row, read as a row, is the vector. -/
theorem toRow_of_cast (x : S1x256.Idx → EReal) (y : S256.Idx → EReal) (e : x = shapeCast S1x256 y shapeCasts_S256_S1x256) :
    (fun j => x (ix2 (0 : Fin 1) j)) = toRow y := funext fun j => by rw [e]; exact shapeCast_a_1a_apply _ _ _ _

theorem B1_V1 : B1 (V1 m ρ) c = toRow (m ((c : Thread nD τ).loc main_arg3)) :=
  toRow_of_cast _ _ (by show StableHlo.after hostOps0 (W0 m ρ c) (Proc.devRef .tc main_v0) = _; after_results; rfl)
theorem B2_V1 : B2 (V1 m ρ) c = toRow (m ((c : Thread nD τ).loc main_arg7)) :=
  toRow_of_cast _ _ (by show StableHlo.after hostOps0 (W0 m ρ c) (Proc.devRef .tc main_v1) = _; after_results; rfl)
theorem G1_V1 : G1 (V1 m ρ) c = toRow (m ((c : Thread nD τ).loc main_arg4)) :=
  toRow_of_cast _ _ (by show StableHlo.after hostOps0 (W0 m ρ c) (Proc.devRef .tc main_v2) = _; after_results; rfl)
theorem G2_V1 : G2 (V1 m ρ) c = toRow (m ((c : Thread nD τ).loc main_arg8)) :=
  toRow_of_cast _ _ (by show StableHlo.after hostOps0 (W0 m ρ c) (Proc.devRef .tc main_v3) = _; after_results; rfl)
theorem BE1_V1 : BE1 (V1 m ρ) c = toRow (m ((c : Thread nD τ).loc main_arg5)) :=
  toRow_of_cast _ _ (by show StableHlo.after hostOps0 (W0 m ρ c) (Proc.devRef .tc main_v4) = _; after_results; rfl)
theorem BE2_V1 : BE2 (V1 m ρ) c = toRow (m ((c : Thread nD τ).loc main_arg9)) :=
  toRow_of_cast _ _ (by show StableHlo.after hostOps0 (W0 m ρ c) (Proc.devRef .tc main_v5) = _; after_results; rfl)

end Cert.KernelIdeal.Hand

end
-- ==== Proof.KerVal.lean ====
import proofs.«134973_g77017353552286_cont_9to1c4b_820_20_alg».proof.Proof.Reg0
import proofs.«134973_g77017353552286_cont_9to1c4b_820_20_alg».proof.Proof.Arr0
import proofs.«134973_g77017353552286_cont_9to1c4b_820_20_alg».proof.Proof.Arr1
import proofs.«134973_g77017353552286_cont_9to1c4b_820_20_alg».proof.Proof.ValPh1
import proofs.«134973_g77017353552286_cont_9to1c4b_820_20_alg».proof.Proof.HostIdeal

noncomputable section

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

abbrev D0 := fun (V : (c : Dev nD) → (b : Ref sig .tc) → Buf (Elt Ideal) ((c : Thread nD τ).loc b)) (c : Dev nD) => dat0 (F := Ideal) V c
abbrev D1 := fun (V : (c : Dev nD) → (b : Ref sig .tc) → Buf (Elt Ideal) ((c : Thread nD τ).loc b)) (c : Dev nD) => dat1 (F := Ideal) V c

theorem kernel_value :
    toMat ((D1 (V2 D0 m ρ) c).arrAt 2 cfg1.N)
      = kerOut (toMat (m ((c : Thread nD τ).loc main_arg0))) (toMat (m ((c : Thread nD τ).loc main_arg1))) (toMat (m ((c : Thread nD τ).loc main_arg2)))
          (toRow (m ((c : Thread nD τ).loc main_arg3))) (toRow (m ((c : Thread nD τ).loc main_arg4))) (toRow (m ((c : Thread nD τ).loc main_arg5)))
          (toMat (m ((c : Thread nD τ).loc main_arg6))) (toRow (m ((c : Thread nD τ).loc main_arg7))) (toRow (m ((c : Thread nD τ).loc main_arg8)))
          (toRow (m ((c : Thread nD τ).loc main_arg9))) := by
  funext r j
  obtain ⟨i, a, rfl⟩ := exists_blockRow r
  show (D1 (V2 D0 m ρ) c).arrAt 2 cfg1.N (ix2 (blockRow i a) j) = _
  rw [arr1_final]
  unfold arr1_G arr1_act arr1_tab
  rw [V2_main_v6_0, V2_main_v6_1, arr0_10, arr0_11, ph1_block, (coef (V1 m ρ) c j).1, (coef (V1 m ρ) c j).2]
  unfold kerOut kNorm H2 S2 A1 H1 S1
  rw [B1_V1, B2_V1, G1_V1, G2_V1, BE1_V1, BE2_V1]
  rfl

end Cert.KernelIdeal.Hand

end
-- ==== Proof.RefRun.lean ====
import proofs.«134973_g77017353552286_cont_9to1c4b_820_20_alg».proof.Proof.Gen.ReferenceIdeal
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev Mx (F : FTy → Type) := FVec F S10000x256 .f32
abbrev Vc (F : FTy → Type) := FVec F S256 .f32
abbrev Sc (F : FTy → Type) := FVec F S_ .f32

abbrev asRow : Vc F → FVec F S1x256 .f32 := broadcastInDim S1x256 ![1] bcast_S256_S1x256_1
abbrev down : FVec F S1x256 .f32 → Mx F := broadcastInDim S10000x256 ![0, 1] bcast_S1x256_S10000x256_0_1
abbrev fill : Sc F → Vc F := broadcastInDim S256 ![] bcast_S_S256
abbrev fillRow : Sc F → FVec F S1x256 .f32 := broadcastInDim S1x256 ![] bcast_S_S1x256
abbrev colSum (x : Mx F) (v : Sc F) : Vc F := Host.reduceAdd x v reducesTo_S10000x256_S256_d0 h_S_
abbrev xw (l : Mx F) (r : FVec F S256x256 .f32) : Mx F :=
  Host.dotGeneral dot_S10000x256_S256x256_S10000x256_1_0_0_1_n_n none l r
abbrev ah (l : FVec F S10000x10000 .f32) (r : Mx F) : Mx F :=
  Host.dotGeneral dot_S10000x10000_S10000x256_S10000x256_1_0_0_1_n_n none l r
abbrev zero : Sc F := constant S_ .f32 0x00000000#32
abbrev rowCount : Sc F := constant S_ .f32 0x461C4000#32
abbrev eps : Sc F := constant S_ .f32 0x3727C5AC#32
abbrev nan : Sc F := constant S_ .f32 0x7FC00000#32
abbrev izero : IVec S_ 32 := constantI S_ 32 0#32

def layer (x : Mx F) (adj : FVec F S10000x10000 .f32) (W : FVec F S256x256 .f32) (b : Vc F) : Mx F :=
  addf (ah adj (xw x W)) (down (asRow b))

def mean (h : Mx F) : Vc F := Host.divf (colSum h zero) (fill rowCount)

def dev (h : Mx F) : Mx F := subf h (down (Host.divf (asRow (colSum h zero)) (fillRow rowCount)))

def count (c : IVec S_ 32) : Sc F := subf rowCount (sitofp .f32 c)

def variance (h : Mx F) (c : IVec S_ 32) : Vc F :=
  select (broadcastInDim S256 ![] bcast_S_S256 (cmpf .ogt (count (F := F) c) zero))
    (Host.divf (colSum (mulf (dev h) (dev h)) zero) (fill (count c))) (fill (id nan))

def norm (h : Mx F) (mu var g be : Vc F) : Mx F :=
  addf (mulf (Host.divf (subf h (down (asRow mu))) (down (asRow (Host.sqrt (addf var (fill eps)))))) (down (asRow g)))
    (down (asRow be))

def normed (h : Mx F) (g be : Vc F) : Mx F := norm h (mean h) (variance h izero) g be

def out (a0 : FVec F S10000x256 .f32) (a1 : FVec F S10000x10000 .f32) (a2 : FVec F S256x256 .f32)
    (a3 a4 a5 : FVec F S256 .f32) (a6 : FVec F S256x256 .f32) (a7 a8 a9 : FVec F S256 .f32) :
    FVec F S10000x256 .f32 :=
  Host.tanh (normed (layer (normed (layer a0 a1 a2 a3) a4 a5) a1 a6 a7) a8 a9)

noncomputable def varOps (x : TRef sig ⟨S10000x256, .f32⟩) (c : TRef sig ⟨S_, .i32⟩) (φ : fn_var.Bufs) : List (HloOp τ sig (Elt F)) :=
  [ TRef.nullary φ.cst zero,
    TRef.binary x φ.cst φ.v0 colSum,
    TRef.unary φ.v0 φ.v1 asRow,
    TRef.nullary φ.cst_0 rowCount,
    TRef.unary φ.cst_0 φ.v2 fillRow,
    TRef.binary φ.v1 φ.v2 φ.v3 Host.divf,
    TRef.unary φ.v3 φ.v4 down,
    TRef.binary x φ.v4 φ.v5 subf,
    TRef.binary φ.v5 φ.v5 φ.v6 mulf,
    TRef.unary c φ.v7 (sitofp .f32),
    TRef.nullary φ.cst_1 rowCount,
    TRef.binary φ.cst_1 φ.v7 φ.v8 subf,
    TRef.nullary φ.cst_2 zero,
    TRef.binary φ.v6 φ.cst_2 φ.v9 colSum,
    TRef.unary φ.v8 φ.v10 fill,
    TRef.binary φ.v9 φ.v10 φ.v11 Host.divf,
    TRef.nullary φ.cst_3 zero,
    TRef.binary φ.v8 φ.cst_3 φ.v12 (cmpf .ogt),
    TRef.nullary φ.cst_4 nan,
    TRef.unary φ.cst_4 φ.call0.v0 id,
    TRef.unary φ.call0.v0 φ.call0.v1 fill,
    TRef.ternary φ.v12 φ.v11 φ.call0.v1 φ.call0.v2 (fun p a b => select (broadcastInDim S256 ![] bcast_S_S256 p) a b) ]

noncomputable def B1 : List (HloOp τ sig (Elt F)) :=
  [ binary main_arg0 main_arg2 main_v0 xw,
    binary main_arg1 main_v0 main_v1 ah,
    unary main_arg3 main_v2 asRow,
    unary main_v2 main_v3 down,
    binary main_v1 main_v3 main_v4 addf,
    nullary main_cst zero,
    binary main_v4 main_cst main_v5 colSum,
    nullary main_cst_0 rowCount,
    unary main_cst_0 main_v6 fill,
    binary main_v5 main_v6 main_v7 Host.divf,
    nullary main_c izero ] ++ (varOps (.of main_v4) (.of main_c) main_call0 ++
  [ unary main_v7 main_v9 asRow,
    unary main_v9 main_v10 down,
    binary main_v4 main_v10 main_v11 subf,
    nullary main_cst_1 eps,
    unary main_cst_1 main_v12 fill,
    binary main_v8 main_v12 main_v13 addf,
    unary main_v13 main_v14 Host.sqrt,
    unary main_v14 main_v15 asRow,
    unary main_v15 main_v16 down,
    binary main_v11 main_v16 main_v17 Host.divf,
    unary main_arg4 main_v18 asRow,
    unary main_v18 main_v19 down,
    binary main_v17 main_v19 main_v20 mulf,
    unary main_arg5 main_v21 asRow,
    unary main_v21 main_v22 down,
    binary main_v20 main_v22 main_v23 addf ])

noncomputable def B2 : List (HloOp τ sig (Elt F)) :=
  [ binary main_v23 main_arg6 main_v24 xw,
    binary main_arg1 main_v24 main_v25 ah,
    unary main_arg7 main_v26 asRow,
    unary main_v26 main_v27 down,
    binary main_v25 main_v27 main_v28 addf,
    nullary main_cst_2 zero,
    binary main_v28 main_cst_2 main_v29 colSum,
    nullary main_cst_3 rowCount,
    unary main_cst_3 main_v30 fill,
    binary main_v29 main_v30 main_v31 Host.divf,
    nullary main_c_4 izero ] ++ (varOps (.of main_v28) (.of main_c_4) main_call1 ++
  [ unary main_v31 main_v33 asRow,
    unary main_v33 main_v34 down,
    binary main_v28 main_v34 main_v35 subf,
    nullary main_cst_5 eps,
    unary main_cst_5 main_v36 fill,
    binary main_v32 main_v36 main_v37 addf,
    unary main_v37 main_v38 Host.sqrt,
    unary main_v38 main_v39 asRow,
    unary main_v39 main_v40 down,
    binary main_v35 main_v40 main_v41 Host.divf,
    unary main_arg8 main_v42 asRow,
    unary main_v42 main_v43 down,
    binary main_v41 main_v43 main_v44 mulf,
    unary main_arg9 main_v45 asRow,
    unary main_v45 main_v46 down,
    binary main_v44 main_v46 main_v47 addf,
    unary main_v47 main_v48 Host.tanh ])

abbrev ops : List (HloOp τ sig (Elt F)) := B1 ++ B2

set_option maxRecDepth 4096 in
set_option maxHeartbeats 1000000 in
theorem main_eq (c : Dev nD) : main (F := F) c = seq ops := by
  simp only [main, fn_var.body, fn_where.body, ops, B1, B2, varOps, List.cons_append, List.nil_append, List.append_assoc, seq,
    bind_assoc, pure_bind]

abbrev A : List (Ref sig .tc) := [main_arg0, main_arg1, main_arg2, main_arg3, main_arg4, main_arg5, main_arg6, main_arg7, main_arg8, main_arg9]

abbrev Wr (F : FTy → Type) [FloatOps F] (l : List (HloOp τ sig (Elt F))) : Prop :=
  l.Forall fun op => op.fresh = ∅ ∧ op.bufs ⊆ tcRefs τ sig ∧ ∀ r ∈ A, Proc.devRef (τ := τ) .tc r ∉ op.writes

theorem nw {K : List (Ref sig .tc)} {y : Ref sig .tc} (h : y ∉ K) :
    ∀ r ∈ K, Proc.devRef (τ := τ) .tc r ∉ ({Proc.devRef .tc y} : Finset (DevRef τ sig)) :=
  fun r hr he => h (Proc.devRef_injective _ (Finset.mem_singleton.mp he) ▸ hr)

-- No operation writes an argument.
theorem writes : Wr F B1 ∧ Wr F ops := by
  simp only [Wr, ops, B1, B2, varOps, List.cons_append, List.nil_append, List.append_assoc, List.Forall]
  repeat' apply And.intro
  all_goals first | exact nw (by decide) | simp only [nullary_bufs_sub, unary_bufs_sub, binary_bufs_sub, ternary_bufs_sub] | rfl

variable (V : Valuation τ sig (Elt F))

abbrev rd (r : Ref sig .tc) := V (Proc.devRef .tc r)

theorem keep' {l : List (HloOp τ sig (Elt F))} (hW : Wr F l) {r : Ref sig .tc} (h : r ∈ A) :
    after l V (no_index (Proc.devRef .tc r)) = V (Proc.devRef .tc r) :=
  after_of_forall_not_mem l V fun op ho => (List.forall_iff_forall_mem.mp hW op ho).2.2 r h

theorem B1_val : after B1 V (no_index (Proc.devRef .tc main_v23))
    = normed (layer (rd V main_arg0) (rd V main_arg1) (rd V main_arg2) (rd V main_arg3)) (rd V main_arg4) (rd V main_arg5) := by
  simp only [B1, varOps, List.cons_append, List.nil_append]; after_results_simp; rfl

theorem B2_val : after B2 V (no_index (Proc.devRef .tc main_v48))
    = Host.tanh (normed (layer (rd V main_v23) (rd V main_arg1) (rd V main_arg6) (rd V main_arg7)) (rd V main_arg8) (rd V main_arg9)) := by
  simp only [B2, varOps, List.cons_append, List.nil_append]; after_results_simp; rfl

theorem value : after ops V (Proc.devRef .tc main_v48) = out (rd V main_arg0) (rd V main_arg1) (rd V main_arg2) (rd V main_arg3) (rd V main_arg4) (rd V main_arg5) (rd V main_arg6) (rd V main_arg7) (rd V main_arg8) (rd V main_arg9) := by
  simp (disch := decide) only [ops, after_append, B2_val, B1_val, keep' _ writes.1]
  rfl

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v48)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun x h c =>
      have k (r : Ref sig .tc) (hr : r ∈ A) : x.2.mem ((c.tc : Thread nD τ).loc r) = m ((c.tc : Thread nD τ).loc r) :=
        (h c r).trans (keep' _ writes.2 hr)
      ⟨(h c main_v48).trans (value (launchContents m c)), k main_arg0 (by decide), k main_arg1 (by decide), k main_arg2 (by decide), k main_arg3 (by decide), k main_arg4 (by decide), k main_arg5 (by decide), k main_arg6 (by decide), k main_arg7 (by decide), k main_arg8 (by decide), k main_arg9 (by decide)⟩)
    (run_seq (by decide) (by decide) defs main (fun _ => ops) main_eq (fun _ => writes.2.imp fun _ h => h.2.1) m ρ
      fun _ op ho => (List.forall_iff_forall_mem.mp writes.2 op ho).1)

end Cert.ReferenceIdeal.RefRun

end
-- ==== Proof.Algebra.lean ====
import proofs.«134973_g77017353552286_cont_9to1c4b_820_20_alg».proof.Proof.Spec

noncomputable section

open scoped BigOperators

namespace Cert.Spec

open Idealize.ShloMosaic

theorem cN_eq : cN = ((10000 : ℝ) : EReal) := by
  simp [cN, Ideal.ofBits, Ideal.ieee, -EReal.coe_mul]; norm_num

theorem c2_eq : c2 = ((2 : ℝ) : EReal) := by
  simp [c2, Ideal.ofBits, Ideal.ieee, -EReal.coe_mul]; norm_num

def eps : ℝ := 10995116 * (2 : ℝ) ^ (-40 : ℤ)

theorem cEps_eq : cEps = (eps : EReal) := by
  simp [cEps, eps, Ideal.ofBits, Ideal.ieee, -EReal.coe_mul]

def cM {a b : Nat} (A : Fin a → Fin b → ℝ) : Mat a b := fun r j => (A r j : EReal)

def cR {b : Nat} (v : Fin b → ℝ) : Row b := fun j => (v j : EReal)

theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem cM_toReal {a b : Nat} {A : Mat a b} (h : FinM A) : cM (fun r j => (A r j).toReal) = A := by
  funext r j
  exact EReal.coe_toReal (h r j).1 (h r j).2

theorem cR_toReal {b : Nat} {v : Row b} (h : FinR v) : cR (fun j => (v j).toReal) = v := by
  funext j
  exact EReal.coe_toReal (h j).1 (h j).2

def mmR {a b c : Nat} (A : Fin a → Fin b → ℝ) (B : Fin b → Fin c → ℝ) : Fin a → Fin c → ℝ :=
  fun r j => ∑ k, A r k * B k j

theorem mm_cM {a b c : Nat} (A : Fin a → Fin b → ℝ) (B : Fin b → Fin c → ℝ) :
    mm (cM A) (cM B) = cM (mmR A B) := by
  funext r j
  simp only [mm, cM, mmR, coe_sum, EReal.coe_mul]

def meanR {n d : Nat} (h : Fin n → Fin d → ℝ) (b : Fin d → ℝ) : Fin d → ℝ :=
  fun j => (∑ r, h r j) / 10000 + b j

def varR {n d : Nat} (h : Fin n → Fin d → ℝ) (b : Fin d → ℝ) : Fin d → ℝ :=
  fun j => (∑ r, (h r j + b j - meanR h b j) * (h r j + b j - meanR h b j)) / 10000

def bnR {n d : Nat} (h : Fin n → Fin d → ℝ) (b g be : Fin d → ℝ) : Fin n → Fin d → ℝ :=
  fun r j => (h r j + b j - meanR h b j) * (Real.sqrt (varR h b j + eps))⁻¹ * g j + be j

theorem varR_add_eps_pos {n d : Nat} (h : Fin n → Fin d → ℝ) (b : Fin d → ℝ) (j : Fin d) :
    0 < varR h b j + eps :=
  add_pos_of_nonneg_of_pos (div_nonneg (Finset.sum_nonneg fun r _ => mul_self_nonneg _) (by norm_num))
    (by unfold eps; positivity)

theorem sum_biased {d : Nat} (h : Fin 10000 → Fin d → ℝ) (b : Fin d → ℝ) (j : Fin d) :
    (∑ r, (h r j + b j)) / 10000 = meanR h b j := by
  unfold meanR
  rw [Finset.sum_add_distrib, Finset.sum_const, Finset.card_univ, Fintype.card_fin, nsmul_eq_mul]
  push_cast
  ring

theorem var_moment {d : Nat} (h : Fin 10000 → Fin d → ℝ) (b : Fin d → ℝ) (j : Fin d) :
    ((∑ r, h r j * h r j) + 2 * b j * (∑ r, h r j)) / 10000 + b j * b j - meanR h b j * meanR h b j
      = varR h b j := by
  have hsq : ∀ r, (h r j + b j - meanR h b j) * (h r j + b j - meanR h b j)
      = h r j * h r j + 2 * (b j - meanR h b j) * h r j + (b j - meanR h b j) * (b j - meanR h b j) :=
    fun r => by ring
  unfold varR
  simp only [hsq]
  rw [Finset.sum_add_distrib, Finset.sum_add_distrib, ← Finset.mul_sum, Finset.sum_const, Finset.card_univ,
    Fintype.card_fin, nsmul_eq_mul]
  unfold meanR
  push_cast
  ring

theorem hN : (10000 : ℝ) ≠ 0 := by norm_num

theorem kNorm_cM {d : Nat} (h : Fin 10000 → Fin d → ℝ) (b g be : Fin d → ℝ) :
    kNorm (cM h) (cR b) (cR g) (cR be) = cM (bnR h b g be) := by
  have hmean : ∀ j, kMean (colSum (cM h)) (cR b) j = (meanR h b j : EReal) := fun j => by
    simp only [kMean, colSum, cM, ← coe_sum, cN_eq, Ideal.div_coe hN, cR, ← EReal.coe_mul, ← EReal.coe_add]
    congr 1
    unfold meanR
    ring
  have hvar : ∀ j, kVar (colSum (cM h)) (colSumSq (cM h)) (cR b) j = (varR h b j : EReal) := fun j => by
    simp only [kVar, hmean]
    simp only [colSum, colSumSq, cM, ← coe_sum, cN_eq, c2_eq, Ideal.div_coe hN, cR, ← EReal.coe_mul, ← EReal.coe_add, ← EReal.coe_sub]
    congr 1
    rw [← var_moment]
    ring
  funext r j
  have hp := varR_add_eps_pos h b j
  simp only [kNorm, kShift, kScale, hvar, hmean, cEps_eq, ← EReal.coe_add, Ideal.rsqrt_coe, if_neg (not_lt.mpr hp.le),
    if_neg hp.ne', cM, cR, bnR, ← EReal.coe_mul, ← EReal.coe_sub]
  congr 1
  ring

theorem rNorm_cM {d : Nat} (h : Fin 10000 → Fin d → ℝ) (b g be : Fin d → ℝ) :
    rNorm (biased (cM h) (cR b)) (cR g) (cR be) = cM (bnR h b g be) := by
  have hmean : ∀ j, rMean (biased (cM h) (cR b)) j = (meanR h b j : EReal) := fun j => by
    simp only [rMean, biased, cM, cR, ← EReal.coe_add, ← coe_sum, cN_eq, Ideal.div_coe hN, ← EReal.coe_mul]
    congr 1
    rw [← sum_biased]
    ring
  have hvar : ∀ j, rVar (biased (cM h) (cR b)) j = (varR h b j : EReal) := fun j => by
    simp only [rVar, hmean, biased, cM, cR, ← EReal.coe_add, ← EReal.coe_sub, ← EReal.coe_mul, ← coe_sum, cN_eq, Ideal.div_coe hN]
    congr 1
    unfold varR
    ring
  funext r j
  have hp := varR_add_eps_pos h b j
  simp only [rNorm, hvar, hmean, biased, cEps_eq, ← EReal.coe_add, Ideal.sqrt_coe, if_neg (not_lt.mpr hp.le),
    Ideal.div_coe (Real.sqrt_pos.mpr hp).ne', cM, cR, bnR, ← EReal.coe_sub, ← EReal.coe_mul]
  congr 1
  ring

theorem kerOut_eq_refOut (x : Mat 10000 256) (adj : Mat 10000 10000) (W1 : Mat 256 256) (b1 g1 be1 : Row 256)
    (W2 : Mat 256 256) (b2 g2 be2 : Row 256)
    (hx : FinM x) (hadj : FinM adj) (hW1 : FinM W1) (hb1 : FinR b1) (hg1 : FinR g1) (hbe1 : FinR be1)
    (hW2 : FinM W2) (hb2 : FinR b2) (hg2 : FinR g2) (hbe2 : FinR be2) :
    kerOut x adj W1 b1 g1 be1 W2 b2 g2 be2 = refOut x adj W1 b1 g1 be1 W2 b2 g2 be2 := by
  rw [← cM_toReal hx, ← cM_toReal hadj, ← cM_toReal hW1, ← cM_toReal hW2, ← cR_toReal hb1, ← cR_toReal hg1, ← cR_toReal hbe1,
    ← cR_toReal hb2, ← cR_toReal hg2, ← cR_toReal hbe2]
  funext r j
  simp only [kerOut, refOut, mm_cM, kNorm_cM, rNorm_cM]

end Cert.Spec

end
-- ==== Proof.RefRead.lean ====
import proofs.«134973_g77017353552286_cont_9to1c4b_820_20_alg».proof.Proof.RefRun
import proofs.«134973_g77017353552286_cont_9to1c4b_820_20_alg».proof.Proof.Algebra
import Idealize.ShloMosaic.Lib.StackMember
import Idealize.ShloMosaic.Lib.IdealHost

noncomputable section

open scoped BigOperators

namespace Cert.ReferenceIdeal.RefRead

open Cert.ReferenceIdeal Cert.ReferenceIdeal.Gen Cert.ReferenceIdeal.RefRun Idealize.ShloMosaic Idealize.ShloMosaic.ValueIdx
open Cert.Spec

theorem down_apply (y : FVec Ideal S1x256 .f32) (r : Fin 10000) (j : Fin 256) :
    down y (ix2 r j) = y (ix2 (0 : Fin 1) j) := by
  show y _ = y _
  congr 1
  funext a
  match a with
  | ⟨0, _⟩ => rfl
  | ⟨1, _⟩ => rfl

theorem asRow_apply (b : Vc Ideal) (j : Fin 256) : asRow b (ix2 (0 : Fin 1) j) = b (ix1 j) := by
  show b _ = b _
  congr 1
  funext a
  match a with
  | ⟨0, _⟩ => rfl

theorem zero_apply : (zero : Sc Ideal) ix0 = 0 := Ideal.ofBits_zero_f32

theorem xw_apply (l : Mx Ideal) (r : FVec Ideal S256x256 .f32) (a : Fin 10000) (b : Fin 256) :
    xw l r (ix2 a b) = ∑ c : Fin 256, l (ix2 a c) * r (ix2 c b) :=
  StackMember.dotGeneral_plain_apply none l r a b

theorem ah_apply (l : FVec Ideal S10000x10000 .f32) (r : Mx Ideal) (a : Fin 10000) (b : Fin 256) :
    ah l r (ix2 a b) = ∑ c : Fin 10000, l (ix2 a c) * r (ix2 c b) :=
  StackMember.dotGeneral_plain_apply none l r a b

theorem colSum_apply (x : Mx Ideal) (j : Fin 256) :
    colSum x zero (ix1 j) = ∑ k : Fin 10000, x (ix2 k j) := by
  have hR : S10000x256.Reduces [0] S256 := by decide
  show Ideal.hostReduceAdd reducesTo_S10000x256_S256_d0 x ((zero : Sc Ideal) (Shape.Idx.first h_S_)) (ix1 j) = _
  rw [Ideal.hostReduceAdd_single reducesTo_S10000x256_S256_d0 hR, eq_ix0 (Shape.Idx.first h_S_), zero_apply, zero_add]
  refine Finset.sum_congr rfl fun k _ => congrArg x ?_
  funext a
  apply Fin.ext
  match a with
  | ⟨0, _⟩ => rfl
  | ⟨1, _⟩ => rfl

theorem fill_apply (v : Sc Ideal) (j : Fin 256) : fill v (ix1 j) = v ix0 :=
  broadcastInDim_scalar_apply _ v _

theorem fillRow_apply (v : Sc Ideal) (j : Fin 256) : fillRow v (ix2 (0 : Fin 1) j) = v ix0 :=
  broadcastInDim_scalar_apply _ v _

theorem sqrt_apply {s : Shape} (x : FVec Ideal s .f32) (i : s.Idx) : Host.sqrt x i = Ideal.sqrt (x i) := rfl

theorem layer_eq (x : Mx Ideal) (adj : FVec Ideal S10000x10000 .f32) (W : FVec Ideal S256x256 .f32)
    (b : Vc Ideal) :
    toMat (layer x adj W b) = biased (mm (toMat adj) (mm (toMat x) (toMat W))) (toRow b) := by
  funext r j
  show layer x adj W b (ix2 r j) = _
  unfold layer
  rw [addf_apply, ah_apply, down_apply, asRow_apply]
  simp only [xw_apply]
  rfl

theorem mean_eq (h : Mx Ideal) : toRow (mean h) = rMean (toMat h) := by
  funext j
  show mean h (ix1 j) = _
  unfold mean
  rw [hostDivf_apply, colSum_apply, fill_apply]
  rfl

theorem dev_apply (h : Mx Ideal) (k : Fin 10000) (j : Fin 256) :
    dev h (ix2 k j) = toMat h k j - rMean (toMat h) j := by
  unfold dev
  rw [subf_apply, down_apply, hostDivf_apply, asRow_apply, colSum_apply, fillRow_apply]
  rfl

theorem count_izero : count (F := Ideal) izero ix0 = cN := by
  unfold RefRun.count
  rw [subf_apply, sitofp_apply]
  show cN - (((0#32 : BitVec 32).toInt : ℝ) : EReal) = cN
  simp

theorem count_gt : FloatOps.cmpf (F := Ideal) (φ := .f32) .ogt cN 0 = 1#1 := by
  show Ideal.cmp .ogt cN 0 = 1#1
  simp [Ideal.cmp, cN_eq]

theorem variance_eq (h : Mx Ideal) : toRow (variance h izero) = rVar (toMat h) := by
  funext j
  show variance h izero (ix1 j) = _
  unfold variance
  rw [select_apply, broadcastInDim_scalar_apply, cmpf_apply, count_izero, zero_apply, count_gt, select_one,
    hostDivf_apply, colSum_apply, fill_apply, count_izero]
  simp only [mulf_apply, dev_apply]
  rfl

theorem normed_eq (h : Mx Ideal) (g be : Vc Ideal) :
    toMat (normed h g be) = rNorm (toMat h) (toRow g) (toRow be) := by
  funext r j
  show norm h (mean h) (variance h izero) g be (ix2 r j) = _
  unfold RefRun.norm
  rw [addf_apply, mulf_apply, hostDivf_apply, subf_apply, down_apply, down_apply, down_apply, down_apply,
    asRow_apply, asRow_apply, asRow_apply, asRow_apply, sqrt_apply, addf_apply, fill_apply]
  show Ideal.div (toMat h r j - toRow (mean h) j) (Ideal.sqrt (toRow (variance h izero) j + cEps)) * toRow g j
      + toRow be j = _
  rw [mean_eq, variance_eq]
  rfl

theorem out_eq (a0 : FVec Ideal S10000x256 .f32) (a1 : FVec Ideal S10000x10000 .f32) (a2 : FVec Ideal S256x256 .f32)
    (a3 a4 a5 : FVec Ideal S256 .f32) (a6 : FVec Ideal S256x256 .f32) (a7 a8 a9 : FVec Ideal S256 .f32) :
    Cert.Spec.toMat (RefRun.out (F := Ideal) a0 a1 a2 a3 a4 a5 a6 a7 a8 a9)
      = Cert.Spec.refOut (toMat a0) (toMat a1) (toMat a2) (toRow a3) (toRow a4) (toRow a5) (toMat a6) (toRow a7)
          (toRow a8) (toRow a9) := by
  funext r j
  show Ideal.tanh (toMat (normed (layer (normed (layer a0 a1 a2 a3) a4 a5) a1 a6 a7) a8 a9) r j) = _
  rw [normed_eq, layer_eq, normed_eq, layer_eq]
  rfl

end Cert.ReferenceIdeal.RefRead

end
-- ==== Proof.FinPre.lean ====
import proofs.«134973_g77017353552286_cont_9to1c4b_820_20_alg».proof.Defs
import proofs.«134973_g77017353552286_cont_9to1c4b_820_20_alg».proof.Proof.Gen.Pre_finite_inputs
import proofs.«134973_g77017353552286_cont_9to1c4b_820_20_alg».proof.Proof.Spec
import Idealize.ShloMosaic.Lib.ReduceAll

noncomputable section

namespace Cert.FinPre

open Idealize.ShloMosaic Idealize.ShloMosaic.ValueIdx Idealize.SL.Sem Cert.Pre_finite_inputs Cert.Spec

-- |x| = max x (-x) is ⊤ at both ⊤ and ⊥, so an array with every |x| < ⊤ holds reals only.
theorem entries_real {s : Shape} {axes : List (Fin s.rank)}
    (bc : S_.BroadcastsInDim s (![] : Fin 0 → Fin s.rank)) (hr : s.ReducesTo axes S_) (hu : 0 < S_.numel)
    (x : FVec Ideal s .f32)
    (h : Host.reduce IntOp.andi
      (cmpf .olt (Host.absf x) (broadcastInDim s ![] bc (constant (F := Ideal) S_ .f32 0x7F800000#32)))
      (constantI S_ 1 1#1) hr hu ix0 = 1#1) (i : s.Idx) : x i ≠ ⊤ ∧ x i ≠ ⊥ := by
  have h' : Ideal.cmp .olt (max (x i) (-x i)) (Ideal.ofBits .f32 0x7F800000#32) = 1#1 :=
    Host.reduce_andi_all _ _ hr hu ix0 h i
  rw [show Ideal.ofBits .f32 0x7F800000#32 = (⊤ : EReal) by simp [Ideal.ofBits, Ideal.ieee]] at h'
  generalize x i = y at h' ⊢
  induction y using EReal.rec with
  | bot => simp [Ideal.cmp] at h'
  | coe r => exact ⟨EReal.coe_ne_top r, EReal.coe_ne_bot r⟩
  | top => simp [Ideal.cmp] at h'

open Cert.KernelIdeal in
theorem fin_of_pre (m : (ℓ : Loc nD τ sig) → Buf (Elt Ideal) ℓ)
    (hpre : Pre_KernelIdeal (hPre_finite_inputs := Pre_finite_inputs.Gen.facts) m) (c : Dev nD) :
    FinM (toMat (a := 10000) (b := 256) (m ((c.tc : Thread nD τ).loc main_arg0))) ∧
      FinM (toMat (a := 10000) (b := 10000) (m ((c.tc : Thread nD τ).loc main_arg1))) ∧
      FinM (toMat (a := 256) (b := 256) (m ((c.tc : Thread nD τ).loc main_arg2))) ∧
      FinR (toRow (b := 256) (m ((c.tc : Thread nD τ).loc main_arg3))) ∧
      FinR (toRow (b := 256) (m ((c.tc : Thread nD τ).loc main_arg4))) ∧
      FinR (toRow (b := 256) (m ((c.tc : Thread nD τ).loc main_arg5))) ∧
      FinM (toMat (a := 256) (b := 256) (m ((c.tc : Thread nD τ).loc main_arg6))) ∧
      FinR (toRow (b := 256) (m ((c.tc : Thread nD τ).loc main_arg7))) ∧
      FinR (toRow (b := 256) (m ((c.tc : Thread nD τ).loc main_arg8))) ∧
      FinR (toRow (b := 256) (m ((c.tc : Thread nD τ).loc main_arg9))) := by
  have h0 := congrFun (hpre c) ix0
  simp only [fn, fn_part1, fn_part2, andi, IntOp.andi_eq_one] at h0
  obtain ⟨⟨⟨⟨⟨⟨⟨⟨⟨e0, e1⟩, e2⟩, e3⟩, e4⟩, e5⟩, e6⟩, e7⟩, e8⟩, e9⟩ := h0
  exact ⟨fun _ _ => entries_real _ _ _ _ e0 _,
    fun _ _ => entries_real _ _ _ _ e1 _,
    fun _ _ => entries_real _ _ _ _ e2 _,
    fun _ => entries_real _ _ _ _ e3 _,
    fun _ => entries_real _ _ _ _ e4 _,
    fun _ => entries_real _ _ _ _ e5 _,
    fun _ _ => entries_real _ _ _ _ e6 _,
    fun _ => entries_real _ _ _ _ e7 _,
    fun _ => entries_real _ _ _ _ e8 _,
    fun _ => entries_real _ _ _ _ e9 _⟩

end Cert.FinPre

end
-- ==== Proof.lean ====
/-
  out = tanh(BN₂(ADJ·(BN₁(ADJ·(X·W₁) + b₁)·W₂) + b₂)), each BN a batch normalisation over the 10000 rows.
  The kernel normalises from the column sums of the unbiased products h and of h²; the reference normalises h + b directly.
  Over finite inputs these agree: mean(h + b) = mean(h) + b, the variance is E[(h + b)²] − E[h + b]², it is nonnegative so the
  regularised variance is positive, and x / sqrt(v) · γ + β = x · (γ · rsqrt(v)) + β.
-/
import proofs.«134973_g77017353552286_cont_9to1c4b_820_20_alg».proof.Defs
import proofs.«134973_g77017353552286_cont_9to1c4b_820_20_alg».proof.Proof.Gen.Kernel
import proofs.«134973_g77017353552286_cont_9to1c4b_820_20_alg».proof.Proof.Gen.KernelIdeal
import proofs.«134973_g77017353552286_cont_9to1c4b_820_20_alg».proof.Proof.Gen.ReferenceIdeal
import proofs.«134973_g77017353552286_cont_9to1c4b_820_20_alg».proof.Proof.Gen.Pre_finite_inputs
import proofs.«134973_g77017353552286_cont_9to1c4b_820_20_alg».proof.Proof.Reg0
import proofs.«134973_g77017353552286_cont_9to1c4b_820_20_alg».proof.Proof.Bits.Reg0
import proofs.«134973_g77017353552286_cont_9to1c4b_820_20_alg».proof.Proof.KerVal
import proofs.«134973_g77017353552286_cont_9to1c4b_820_20_alg».proof.Proof.RefRead
import proofs.«134973_g77017353552286_cont_9to1c4b_820_20_alg».proof.Proof.Algebra
import proofs.«134973_g77017353552286_cont_9to1c4b_820_20_alg».proof.Proof.FinPre
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame_all (F := Bits) (fun V c => Cert.Kernel.Hand.dat0 V c) (fun V c => Cert.Kernel.Hand.dat1 V c)
    Cert.Kernel.Hand.hyp0 Cert.Kernel.Hand.hyp1 m ρ

theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) (fun V c => Cert.KernelIdeal.Hand.dat0 V c) (fun V c => Cert.KernelIdeal.Hand.dat1 V c)
    Cert.KernelIdeal.Hand.hyp0 Cert.KernelIdeal.Hand.hyp1 m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

-- The kernel's result is the network written from the sums, the reference's the network written directly: one function over finite inputs.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand.D1 (Cert.KernelIdeal.Hand.V2 Cert.KernelIdeal.Hand.D0 m ρ) c).arrAt 2 Cert.KernelIdeal.cfg1.N,
    Cert.KernelIdeal.Hand.value_all (F := Ideal) Cert.KernelIdeal.Hand.D0 Cert.KernelIdeal.Hand.D1 Cert.KernelIdeal.Hand.hyp0 Cert.KernelIdeal.Hand.hyp1 m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9]
  obtain ⟨f0, f1, f2, f3, f4, f5, f6, f7, f8, f9⟩ := Cert.FinPre.fin_of_pre m hpre c
  funext idx
  rw [eq_ix2 idx]
  exact congrFun (congrFun ((Cert.ReferenceIdeal.RefRead.out_eq _ _ _ _ _ _ _ _ _ _).trans
    ((Cert.Spec.kerOut_eq_refOut _ _ _ _ _ _ _ _ _ _ f0 f1 f2 f3 f4 f5 f6 f7 f8 f9).symm.trans
      (Cert.KernelIdeal.Hand.kernel_value m ρ c).symm)) (idx 0)) (idx 1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
